-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S8192x128 : Shape := ⟨2, ![8192, 128]⟩
abbrev S16384x8192 : Shape := ⟨2, ![16384, 8192]⟩
abbrev S128x128 : Shape := ⟨2, ![128, 128]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16384x128 .f32) (main_arg1 : FVec F S8192x128 .f32) (main_arg2 : IVec S16384x8192 32) (main_arg3 : FVec F S128x128 .f32) (main_arg4 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16384x128 : Shape := ⟨2, ![16384, 128]⟩
abbrev S8192x128 : Shape := ⟨2, ![8192, 128]⟩
abbrev S16384x8192 : Shape := ⟨2, ![16384, 8192]⟩
abbrev S128x128 : Shape := ⟨2, ![128, 128]⟩
abbrev S128 : Shape := ⟨1, ![128]⟩
abbrev S1x128 : Shape := ⟨2, ![1, 128]⟩
abbrev S8192x16384 : Shape := ⟨2, ![8192, 16384]⟩
abbrev S512x128 : Shape := ⟨2, ![512, 128]⟩
abbrev S512x1024 : Shape := ⟨2, ![512, 1024]⟩
abbrev S1024x512 : Shape := ⟨2, ![1024, 512]⟩
abbrev S512x1 : Shape := ⟨2, ![512, 1]⟩
abbrev S1024x128 : Shape := ⟨2, ![1024, 128]⟩
abbrev S128x1024 : Shape := ⟨2, ![128, 1024]⟩
abbrev S512 : Shape := ⟨1, ![512]⟩
abbrev S1024x1 : Shape := ⟨2, ![1024, 1]⟩
abbrev S128x512 : Shape := ⟨2, ![128, 512]⟩
abbrev S1024 : Shape := ⟨1, ![1024]⟩

abbrev nBuf : Space → Nat
  | .hbm => 10
  | .vmem => 26
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S16384x8192, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S1x128, .f32⟩
  | .hbm, ⟨7, _⟩ => ⟨S16384x128, .f32⟩
  | .hbm, ⟨8, _⟩ => ⟨S8192x16384, .bf16⟩
  | .hbm, ⟨9, _⟩ => ⟨S8192x128, .f32⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S512x1024, .i32⟩
  | .local _ .vmem, ⟨4, _⟩ => ⟨S512x1024, .i32⟩
  | .local _ .vmem, ⟨5, _⟩ => ⟨S128x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S1024x512, .bf16⟩
  | .local _ .vmem, ⟨10, _⟩ => ⟨S1024x512, .bf16⟩
  | .local _ .vmem, ⟨11, _⟩ => ⟨S512x1, .f32⟩
  | .local _ .vmem, ⟨12, _⟩ => ⟨S512x1, .f32⟩
  | .local _ .vmem, ⟨13, _⟩ => ⟨S512x128, .f32⟩
  | .local _ .vmem, ⟨14, _⟩ => ⟨S1024x128, .f32⟩
  | .local _ .vmem, ⟨15, _⟩ => ⟨S1024x128, .f32⟩
  | .local _ .vmem, ⟨16, _⟩ => ⟨S16384x128, .f32⟩
  | .local _ .vmem, ⟨17, _⟩ => ⟨S1024x512, .bf16⟩
  | .local _ .vmem, ⟨18, _⟩ => ⟨S1024x512, .bf16⟩
  | .local _ .vmem, ⟨19, _⟩ => ⟨S128x128, .f32⟩
  | .local _ .vmem, ⟨20, _⟩ => ⟨S1x128, .f32⟩
  | .local _ .vmem, ⟨21, _⟩ => ⟨S1024x128, .f32⟩
  | .local _ .vmem, ⟨22, _⟩ => ⟨S1024x128, .f32⟩
  | .local _ .vmem, ⟨23, _⟩ => ⟨S1024x1, .f32⟩
  | .local _ .vmem, ⟨24, _⟩ => ⟨S1024x1, .f32⟩
  | .local _ .vmem, ⟨25, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c1024_i32 : BitVec 32 := 1024#32
  let v4 : BitVec 32 := Scalar.muli arg1 c1024_i32
  v4
def k0_off1 (i : grid0.Coords) : Fin 2 → Nat :=
  let arg1 : BitVec 32 := BitVec.ofNat 32 (i 1).val
  let c1024_i32 : BitVec 32 := 1024#32
  let v4 : BitVec 32 := Scalar.muli arg1 c1024_i32
  let v5 : BitVec 32 := v4
  let v6 : Index := Scalar.indexCast v5
  let c0_2 : Index := 0#32
  ![v6.toNat, 0]
def k0_cond2 (i : grid0.Coords) : BitVec 1 :=
  let arg1 : BitVec 32 := BitVec.ofNat 32 (i 1).val
  let c7_i32 : BitVec 32 := 7#32
  let v56 : BitVec 1 := Scalar.cmpi .eq arg1 c7_i32
  let v57 : BitVec 32 := Scalar.extui v56
  let c0_i32_27 : BitVec 32 := 0#32
  let v58 : BitVec 1 := Scalar.cmpi .ne v57 c0_i32_27
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 32], ![false, false]⟩

def k1_mult1 (i : grid1.Coords) : BitVec 32 :=
  let arg1 : BitVec 32 := BitVec.ofNat 32 (i 1).val
  let c512_i32 : BitVec 32 := 512#32
  let v4 : BitVec 32 := Scalar.muli arg1 c512_i32
  v4
def k1_off1 (i : grid1.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v6 : Index := Scalar.indexCast v5
  let c0_2 : Index := 0#32
  ![v6.toNat, 0]
def k1_cond2 (i : grid1.Coords) : BitVec 1 :=
  let arg1 : BitVec 32 := BitVec.ofNat 32 (i 1).val
  let c31_i32 : BitVec 32 := 31#32
  let v51 : BitVec 1 := Scalar.cmpi .eq arg1 c31_i32
  let v52 : BitVec 32 := Scalar.extui v51
  let c0_i32_24 : BitVec 32 := 0#32
  let v53 : BitVec 1 := Scalar.cmpi .ne v52 c0_i32_24
  v53

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S16384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  transposes_S128x128_S128x128_1_0 : S128x128.Transposes [1, 0] S128x128
  shapeCasts_S128_S1x128 : S128.ShapeCasts S1x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S1024x128 : 0 < S1024x128.numel
  bitsLt_bf16_f32 : FTy.bits .bf16 < FTy.bits .f32
  transposes_S1024x128_p1_0_S128x1024 : S1024x128.Transposes [1, 0] S128x1024
  inb_S512x1024_S512x1024_0_0 : ∀ a, (![0, 0] : Fin 2 → Nat) a + S512x1024.size a ≤ S512x1024.size a
  h_S512x1024 : 0 < S512x1024.numel
  natLt_1_32 : 1 < 32
  reduces_S512x1024_S512 : S512x1024.Reduces [1] S512
  shapeCasts_S512_S512x1 : S512.ShapeCasts S512x1
  broadcasts_S512x1_S512x1024 : S512x1.Broadcasts S512x1024
  broadcasts_S512x1_S512x128 : S512x1.Broadcasts S512x128
  transposes_S512x1024_p1_0_S1024x512 : S512x1024.Transposes [1, 0] S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  shapeCasts_S1024x128_S1024x128 : S1024x128.ShapeCasts S1024x128
  transposes_S512x128_p1_0_S128x512 : S512x128.Transposes [1, 0] S128x512
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x128 : S1024x1.Broadcasts S1024x128
  broadcasts_S1x128_S1024x128 : S1x128.Broadcasts S1024x128
  dot_S512x128_S128x1024_S512x1024_1_0_0_1_n_n_wf : DotDims.WF S512x128 S128x1024 S512x1024 [1] [0] [0] [1] [] []
  dot_S512x1024_S1024x128_S512x128_1_0_0_1_n_n_wf : DotDims.WF S512x1024 S1024x128 S512x128 [1] [0] [0] [1] [] []
  dot_S512x128_S128x128_S512x128_1_0_0_1_n_n_wf : DotDims.WF S512x128 S128x128 S512x128 [1] [0] [0] [1] [] []
  dot_S1024x128_S128x512_S1024x512_1_0_0_1_n_n_wf : DotDims.WF S1024x128 S128x512 S1024x512 [1] [0] [0] [1] [] []
  dot_S1024x512_S512x128_S1024x128_1_0_0_1_n_n_wf : DotDims.WF S1024x512 S512x128 S1024x128 [1] [0] [0] [1] [] []
  dot_S1024x128_S128x128_S1024x128_1_0_0_1_n_n_wf : DotDims.WF S1024x128 S128x128 S1024x128 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .f32 = 32 ∨ (Rect.block (s := S16384x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x8192.size a
  hwx0_2 : ∀ i : grid0.Coords, EltTy.bits .i32 = 32 ∨ (Rect.block (s := S16384x8192) S512x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S16384x128.size a
  hwx0_5 : ∀ i : grid0.Coords, EltTy.bits .f32 = 32 ∨ (Rect.block (s := S16384x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x16384.size a
  hwx0_6 : ∀ i : grid0.Coords, EltTy.bits .bf16 = 32 ∨ (Rect.block (s := S8192x16384) S1024x512.size (cc0_transform_6 i) (hinb0_6 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .f32 = 32 ∨ (Rect.block (s := S16384x128) S16384x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x16384.size a
  hwx1_2 : ∀ i : grid1.Coords, EltTy.bits .bf16 = 32 ∨ (Rect.block (s := S8192x16384) S1024x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S8192x128.size a
  hwx1_5 : ∀ i : grid1.Coords, EltTy.bits .f32 = 32 ∨ (Rect.block (s := S8192x128) S1024x128.size (cc1_transform_5 i) (hinb1_5 i)).WholeWords (EltTy.packing .f32)

variable [Facts₀]

def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S512x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun _ => false | ⟨_ + 7, h⟩ => absurd h (Nat.not_lt.2 (Nat.le_add_left _ _))

abbrev win1_0 : Pipeline.Window sig grid1 :=
  Pipeline.Window.ofSpec (Memref.whole main_arg1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16384x128 : Shape := ⟨2, ![16384, 128]⟩
abbrev S8192x128 : Shape := ⟨2, ![8192, 128]⟩
abbrev S16384x8192 : Shape := ⟨2, ![16384, 8192]⟩
abbrev S128x128 : Shape := ⟨2, ![128, 128]⟩
abbrev S128 : Shape := ⟨1, ![128]⟩
abbrev S1x128 : Shape := ⟨2, ![1, 128]⟩
abbrev S_ : Shape := ⟨0, ![]⟩
abbrev S128x8192 : Shape := ⟨2, ![128, 8192]⟩
abbrev S16384 : Shape := ⟨1, ![16384]⟩
abbrev S16384x1 : Shape := ⟨2, ![16384, 1]⟩
abbrev S128x16384 : Shape := ⟨2, ![128, 16384]⟩
abbrev S8192x16384 : Shape := ⟨2, ![8192, 16384]⟩
abbrev S8192 : Shape := ⟨1, ![8192]⟩
abbrev S8192x1 : Shape := ⟨2, ![8192, 1]⟩

abbrev nBuf : Space → Nat
  | .hbm => 78
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S16384x8192, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S16384x128, .f32⟩
  | .hbm, ⟨7, _⟩ => ⟨S1x128, .f32⟩
  | .hbm, ⟨8, _⟩ => ⟨S16384x128, .f32⟩
  | .hbm, ⟨9, _⟩ => ⟨S16384x128, .f32⟩
  | .hbm, ⟨10, _⟩ => ⟨S_, .f32⟩
  | .hbm, ⟨11, _⟩ => ⟨S16384x128, .f32⟩
  | .hbm, ⟨12, _⟩ => ⟨S16384x128, .f32⟩
  | .hbm, ⟨13, _⟩ => ⟨S128x128, .f32⟩
  | .hbm, ⟨14, _⟩ => ⟨S8192x128, .f32⟩
  | .hbm, ⟨15, _⟩ => ⟨S1x128, .f32⟩
  | .hbm, ⟨16, _⟩ => ⟨S8192x128, .f32⟩
  | .hbm, ⟨17, _⟩ => ⟨S8192x128, .f32⟩
  | .hbm, ⟨18, _⟩ => ⟨S_, .f32⟩
  | .hbm, ⟨19, _⟩ => ⟨S8192x128, .f32⟩
  | .hbm, ⟨20, _⟩ => ⟨S8192x128, .f32⟩
  | .hbm, ⟨21, _⟩ => ⟨S_, .i32⟩
  | .hbm, ⟨22, _⟩ => ⟨S16384x8192, .i32⟩
  | .hbm, ⟨23, _⟩ => ⟨S16384x8192, .i1⟩
  | .hbm, ⟨24, _⟩ => ⟨S16384x8192, .f32⟩
  | .hbm, ⟨25, _⟩ => ⟨S128x8192, .f32⟩
  | .hbm, ⟨26, _⟩ => ⟨S16384x8192, .f32⟩
  | .hbm, ⟨27, _⟩ => ⟨S16384x8192, .f32⟩
  | .hbm, ⟨28, _⟩ => ⟨S_, .f32⟩
  | .hbm, ⟨29, _⟩ => ⟨S16384x8192, .f32⟩
  | .hbm, ⟨30, _⟩ => ⟨S16384x8192, .f32⟩
  | .hbm, ⟨31, _⟩ => ⟨S_, .f32⟩
  | .hbm, ⟨32, _⟩ => ⟨S16384x8192, .f32⟩
  | .hbm, ⟨33, _⟩ => ⟨S16384x8192, .f32⟩
  | .hbm, ⟨34, _⟩ => ⟨S16384x8192, .f32⟩
  | .hbm, ⟨35, _⟩ => ⟨S_, .f32⟩
  | .hbm, ⟨36, _⟩ => ⟨S16384, .f32⟩
  | .hbm, ⟨37, _⟩ => ⟨S_, .f32⟩
  | .hbm, ⟨38, _⟩ => ⟨S16384, .f32⟩
  | .hbm, ⟨39, _⟩ => ⟨S16384, .f32⟩
  | .hbm, ⟨40, _⟩ => ⟨S16384x1, .f32⟩
  | .hbm, ⟨41, _⟩ => ⟨S16384x8192, .f32⟩
  | .hbm, ⟨42, _⟩ => ⟨S16384x8192, .f32⟩
  | .hbm, ⟨43, _⟩ => ⟨S16384x8192, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S16384x8192, .f32⟩
  | .hbm, ⟨48, _⟩ => ⟨S16384x8192, .f32⟩
  | .hbm, ⟨49, _⟩ => ⟨S16384x128, .f32⟩
  | .hbm, ⟨50, _⟩ => ⟨S16384x128, .f32⟩
  | .hbm, ⟨51, _⟩ => ⟨S128x16384, .f32⟩
  | .hbm, ⟨52, _⟩ => ⟨S8192x16384, .f32⟩
  | .hbm, ⟨53, _⟩ => ⟨S8192x16384, .f32⟩
  | .hbm, ⟨54, _⟩ => ⟨S8192x16384, .f32⟩
  | .hbm, ⟨55, _⟩ => ⟨S_, .f32⟩
  | .hbm, ⟨56, _⟩ => ⟨S8192x16384, .f32⟩
  | .hbm, ⟨57, _⟩ => ⟨S8192x16384, .f32⟩
  | .hbm, ⟨58, _⟩ => ⟨S_, .f32⟩
  | .hbm, ⟨59, _⟩ => ⟨S8192x16384, .f32⟩
  | .hbm, ⟨60, _⟩ => ⟨S8192x16384, .f32⟩
  | .hbm, ⟨61, _⟩ => ⟨S8192x16384, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192x1, .f32⟩
  | .hbm, ⟨68, _⟩ => ⟨S8192x16384, .f32⟩
  | .hbm, ⟨69, _⟩ => ⟨S8192x16384, .f32⟩
  | .hbm, ⟨70, _⟩ => ⟨S8192x16384, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x16384, .f32⟩
  | .hbm, ⟨75, _⟩ => ⟨S8192x16384, .f32⟩
  | .hbm, ⟨76, _⟩ => ⟨S8192x128, .f32⟩
  | .hbm, ⟨77, _⟩ => ⟨S8192x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call1_cst : Ref sig .tc := ⟨.hbm, 18, rfl⟩
abbrev main_call1_v0 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S_S16384x8192 : S_.BroadcastsInDim S16384x8192 (![] : Fin 0 → Fin S16384x8192.rank)
  transposes_S8192x128_S128x8192_1_0 : S8192x128.Transposes [1, 0] S128x8192
  reducesTo_S16384x8192_S16384_d1 : S16384x8192.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x8192_0_1 : S16384x1.BroadcastsInDim S16384x8192 (![0, 1] : Fin 2 → Fin S16384x8192.rank)
  transposes_S16384x128_S128x16384_1_0 : S16384x128.Transposes [1, 0] S128x16384
  transposes_S16384x8192_S8192x16384_1_0 : S16384x8192.Transposes [1, 0] S8192x16384
  bcast_S_S8192x16384 : S_.BroadcastsInDim S8192x16384 (![] : Fin 0 → Fin S8192x16384.rank)
  reducesTo_S8192x16384_S8192_d1 : S8192x16384.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16384_0_1 : S8192x1.BroadcastsInDim S8192x16384 (![0, 1] : Fin 2 → Fin S8192x16384.rank)
  dot_S16384x128_S128x128_S16384x128_1_0_0_1_n_n_wf : DotDims.WF S16384x128 S128x128 S16384x128 [1] [0] [0] [1] [] []
  dot_S8192x128_S128x128_S8192x128_1_0_0_1_n_n_wf : DotDims.WF S8192x128 S128x128 S8192x128 [1] [0] [0] [1] [] []
  dot_S16384x128_S128x8192_S16384x8192_1_0_0_1_n_n_wf : DotDims.WF S16384x128 S128x8192 S16384x8192 [1] [0] [0] [1] [] []
  dot_S16384x8192_S8192x128_S16384x128_1_0_0_1_n_n_wf : DotDims.WF S16384x8192 S8192x128 S16384x128 [1] [0] [0] [1] [] []
  dot_S8192x128_S128x16384_S8192x16384_1_0_0_1_n_n_wf : DotDims.WF S8192x128 S128x16384 S8192x16384 [1] [0] [0] [1] [] []
  dot_S8192x16384_S16384x128_S8192x128_1_0_0_1_n_n_wf : DotDims.WF S8192x16384 S16384x128 S8192x128 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S16384x128_S128x8192_S16384x8192_1_0_0_1_n_n : DotDims S16384x128 S128x8192 S16384x8192 where
  lhsContracting := [1]
  rhsContracting := [0]
  lhsNonContracting := [0]
  rhsNonContracting := [1]
  lhsBatch := []
  rhsBatch := []
  wf := dot_S16384x128_S128x8192_S16384x8192_1_0_0_1_n_n_wf
def dot_S16384x8192_S8192x128_S16384x128_1_0_0_1_n_n : DotDims S16384x8192 S8192x128 S16384x128 where
  lhsContracting := [1]
  rhsContracting := [0]
  lhsNonContracting := [0]
  rhsNonContracting := [1]
  lhsBatch := []
  rhsBatch := []
  wf := dot_S16384x8192_S8192x128_S16384x128_1_0_0_1_n_n_wf
def dot_S8192x128_S128x16384_S8192x16384_1_0_0_1_n_n : DotDims S8192x128 S128x16384 S8192x16384 where
  lhsContracting := [1]
  rhsContracting := [0]
  lhsNonContracting := [0]
  rhsNonContracting := [1]
  lhsBatch := []
  rhsBatch := []
  wf := dot_S8192x128_S128x16384_S8192x16384_1_0_0_1_n_n_wf
def dot_S8192x16384_S16384x128_S8192x128_1_0_0_1_n_n : DotDims S8192x16384 S16384x128 S8192x128 where
  lhsContracting := [1]
  rhsContracting := [0]
  lhsNonContracting := [0]
  rhsNonContracting := [1]
  lhsBatch := []
  rhsBatch := []
  wf := dot_S8192x16384_S16384x128_S8192x128_1_0_0_1_n_n_wf

class Facts : Prop extends Facts₀ where

variable [Facts]
-- ==== Proof.Bits.U0Defs.lean ====
import proofs.«400831_j17978733101719_3_alg».proof.Proof.Gen.Kernel.Launch
import proofs.«400831_j17978733101719_3_alg».proof.Proof.Gen.Kernel.Skeleton
import proofs.«400831_j17978733101719_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer of core `c` held at any contents. -/
abbrev anyAt (c : Dev nD) (b : Ref sig .tc) : sProp 𝕄 :=
  iprop(∃ f : Buf (Elt F) ((c : Thread nD τ).loc b), ((c : Thread nD τ).loc b) ↦{fullShare} f)

/-- A buffer held at a list of writes that covers its shape is owned at those writes read back, whatever was there before. -/
theorem owns_of_cover (c : Thread nD τ) {sh : Shape} {e : EltTy} (m : Memref sig c.2.kind .vmem sh e) (v' : View sig c.2.kind .vmem sh e)
    (f' : v'.ty.Contents (Elt F)) (L : List (View.Piece (Elt F) sh e)) (f : m.view.ty.Contents (Elt F)) (h : ∀ y, ∃ p ∈ L, y ∈ p.1.set) :
    (m.view.loc c ↦[m.view.set]{fullShare} m.view.writes (Elt F) f L : sProp 𝕄) ⊢ owns c m fullShare (v'.read (Elt F) (v'.writes (Elt F) f' L)) :=
  View.read_writes_of_cover m.view f v' f' L h ▸ owns_intro c m fullShare _

/-- The reset branch is taken where the coordinate along the streamed axis is 0, the finishing branch where it is the last. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_6 : ∀ t : Fin cfg0.N, cfg0.idle 6 (grid0.coords t) = false := by decide +kernel

theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .bf16 := win0_6.stage (cfg0.slots t 6)
abbrev hs0_6 (t : Fin cfg0.N) : (ms0_6 t).IsWhole := hstage0_6 ((cfg0.slots t 6).cast nbuf0_6)

abbrev scM0_0 : Memref sig .tc .vmem S512x1 .f32 := Memref.whole cc0_scratch0
abbrev scM0_1 : Memref sig .tc .vmem S512x1 .f32 := Memref.whole cc0_scratch1
abbrev scM0_2 : Memref sig .tc .vmem S512x128 .f32 := Memref.whole cc0_scratch2
abbrev VS0_0 : View sig .tc .vmem S512x1 .f32 := scM0_0.view
abbrev VS0_1 : View sig .tc .vmem S512x1 .f32 := scM0_1.view
abbrev VS0_2 : View sig .tc .vmem S512x128 .f32 := scM0_2.view
abbrev VO0_5 : View sig .tc .vmem S512x128 .f32 := (Memref.whole cc0_stg5_0 : Memref sig .tc .vmem S512x128 .f32).view
abbrev VO0_6 : View sig .tc .vmem S1024x512 .bf16 := (Memref.whole cc0_stg6_0 : Memref sig .tc .vmem S1024x512 .bf16).view

end Cert.Kernel.Hand

end
-- ==== Proof.Bits.UEntry.lean ====
import proofs.«400831_j17978733101719_3_alg».proof.Proof.Bits.U0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

end Cert.Kernel.Hand

end
-- ==== Proof.Bits.U0Run.lean ====
import proofs.«400831_j17978733101719_3_alg».proof.Proof.Bits.U0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x128 .f32) (harg2 : arg2.IsWhole) (arg3 : Memref sig .tc .vmem S8192x128 .f32) (harg3 : arg3.IsWhole) (arg4 : Memref sig .tc .vmem S512x1024 .i32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S1024x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x128 .f32) (harg11 : arg11.IsWhole)

set_option maxHeartbeats 4000000 in
noncomputable def kernelRun0_B (hc0 : ¬cond0_0 i) (hc1 : ¬cond0_1 i)
    (x0 : Vec F S512x128 .f32) (x1 : Vec F S8192x128 .f32) (x2 : Vec F S512x1024 .i32) (x3 : Vec F S128x128 .f32) (x4 : Vec F S1x128 .f32)
    (xs0 : Vec F S512x1 .f32) (xs1 : Vec F S512x1 .f32) (xs2 : Vec F S512x128 .f32) :
    Σ' (L5 : List (View.Piece (Elt F) S512x128 .f32)) (L6 : List (View.Piece (Elt F) S1024x512 .bf16)) (LS0 : List (View.Piece (Elt F) S512x1 .f32)) (LS1 : List (View.Piece (Elt F) S512x1 .f32)), { LS2 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__user_kernel i arg2 harg2 arg3 harg3 arg4 harg4 arg5 harg5 arg6 harg6 arg7 harg7 arg8 harg8 arg9 harg9 arg10 harg10 arg11 harg11) K } := by
  refine ⟨[], ?_, ?_, ?_, ?_, fun xi5 E K => ?run⟩
  case run =>
    simp only [cc0__user_kernel_eq_skeleton]; unfold cc0__user_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

set_option maxHeartbeats 4000000 in
noncomputable def kernelRun0_A (hc0 : cond0_0 i) (hc1 : ¬cond0_1 i)
    (x0 : Vec F S512x128 .f32) (x1 : Vec F S8192x128 .f32) (x2 : Vec F S512x1024 .i32) (x3 : Vec F S128x128 .f32) (x4 : Vec F S1x128 .f32) :
    Σ' (L5 : List (View.Piece (Elt F) S512x128 .f32)) (L6 : List (View.Piece (Elt F) S1024x512 .bf16)) (LS0 : List (View.Piece (Elt F) S512x1 .f32)) (LS1 : List (View.Piece (Elt F) S512x1 .f32)), { LS2 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__user_kernel i arg2 harg2 arg3 harg3 arg4 harg4 arg5 harg5 arg6 harg6 arg7 harg7 arg8 harg8 arg9 harg9 arg10 harg10 arg11 harg11) K } := by
  refine ⟨[], ?_, ?_, ?_, ?_, fun xi5 E K => ?run⟩
  case run =>
    simp only [cc0__user_kernel_eq_skeleton]; unfold cc0__user_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

set_option maxHeartbeats 4000000 in
noncomputable def kernelRun0_C (hc0 : ¬cond0_0 i) (hc1 : cond0_1 i)
    (x0 : Vec F S512x128 .f32) (x1 : Vec F S8192x128 .f32) (x2 : Vec F S512x1024 .i32) (x3 : Vec F S128x128 .f32) (x4 : Vec F S1x128 .f32)
    (xs0 : Vec F S512x1 .f32) (xs1 : Vec F S512x1 .f32) (xs2 : Vec F S512x128 .f32) :
    Σ' (L5 : List (View.Piece (Elt F) S512x128 .f32)) (L6 : List (View.Piece (Elt F) S1024x512 .bf16)) (LS0 : List (View.Piece (Elt F) S512x1 .f32)) (LS1 : List (View.Piece (Elt F) S512x1 .f32)), { LS2 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__user_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__user_kernel_eq_skeleton]; unfold cc0__user_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    iexists _; iexact HS2

end Cert.Kernel.Hand

end
-- ==== Proof.Bits.U0Res.lean ====
import proofs.«400831_j17978733101719_3_alg».proof.Proof.Bits.U0Run

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]
variable (c : Dev nD) (i : grid0.Coords) (arg2 : Memref sig .tc .vmem S512x128 .f32) (harg2 : arg2.IsWhole) (arg3 : Memref sig .tc .vmem S8192x128 .f32) (harg3 : arg3.IsWhole) (arg4 : Memref sig .tc .vmem S512x1024 .i32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S1024x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x128 .f32) (harg11 : arg11.IsWhole)

section A
variable (hc0 : cond0_0 i) (hc1 : ¬cond0_1 i) (x0 : Vec F S512x128 .f32) (x1 : Vec F S8192x128 .f32) (x2 : Vec F S512x1024 .i32) (x3 : Vec F S128x128 .f32) (x4 : Vec F S1x128 .f32)

/-- What the body leaves in the output blocks and the three running buffers, case by case: the values its stores wrote, read back. -/
def res0_A : Vec F S512x128 .f32 × Vec F S1024x512 .bf16 × Vec F S512x1 .f32 × Vec F S512x1 .f32 × Vec F S512x128 .f32 :=
  (VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3 x4).1),
   VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2 x3 x4).2.1),
   VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4).2.2.1),
   VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4).2.2.2.1),
   VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3 x4).2.2.2.2.1))

theorem cover0_A_6 (y : S1024x512.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL _ S1024x512.size (by sl_kernel_rfl) y
theorem scover0_A_0 (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL _ S512x1.size (by sl_kernel_rfl) y
theorem scover0_A_1 (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL _ S512x1.size (by sl_kernel_rfl) y
theorem scover0_A_2 (y : S512x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.2.2.1, y ∈ pc.1.set :=
  View.cover_of_tiledL _ S512x128.size (by sl_kernel_rfl) y
end A

section B
variable (hc0 : ¬cond0_0 i) (hc1 : ¬cond0_1 i) (x0 : Vec F S512x128 .f32) (x1 : Vec F S8192x128 .f32) (x2 : Vec F S512x1024 .i32) (x3 : Vec F S128x128 .f32) (x4 : Vec F S1x128 .f32) (xs0 : Vec F S512x1 .f32) (xs1 : Vec F S512x1 .f32) (xs2 : Vec F S512x128 .f32)

def res0_B : Vec F S512x128 .f32 × Vec F S1024x512 .bf16 × Vec F S512x1 .f32 × Vec F S512x1 .f32 × Vec F S512x128 .f32 :=
  (VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).1),
   VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.1),
   VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.1),
   VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.1),
   VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.1))

theorem cover0_B_6 (y : S1024x512.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL _ S1024x512.size (by sl_kernel_rfl) y
theorem scover0_B_0 (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL _ S512x1.size (by sl_kernel_rfl) y
theorem scover0_B_1 (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL _ S512x1.size (by sl_kernel_rfl) y
theorem scover0_B_2 (y : S512x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.1, y ∈ pc.1.set :=
  View.cover_of_tiledL _ S512x128.size (by sl_kernel_rfl) y
end B

section C
variable (hc0 : ¬cond0_0 i) (hc1 : cond0_1 i) (x0 : Vec F S512x128 .f32) (x1 : Vec F S8192x128 .f32) (x2 : Vec F S512x1024 .i32) (x3 : Vec F S128x128 .f32) (x4 : Vec F S1x128 .f32) (xs0 : Vec F S512x1 .f32) (xs1 : Vec F S512x1 .f32) (xs2 : Vec F S512x128 .f32)

def res0_C : Vec F S512x128 .f32 × Vec F S1024x512 .bf16 × Vec F S512x1 .f32 × Vec F S512x1 .f32 × Vec F S512x128 .f32 :=
  (VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1),
   VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1),
   VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.1),
   VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.1),
   VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.1))

theorem cover0_C_6 (y : S1024x512.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL _ S1024x512.size (by sl_kernel_rfl) y
theorem scover0_C_0 (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL _ S512x1.size (by sl_kernel_rfl) y
theorem scover0_C_1 (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL _ S512x1.size (by sl_kernel_rfl) y
theorem scover0_C_2 (y : S512x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.1, y ∈ pc.1.set :=
  View.cover_of_tiledL _ S512x128.size (by sl_kernel_rfl) y
theorem cover0_C_5 (y : S512x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL _ S512x128.size (by sl_kernel_rfl) y
end C

end Cert.Kernel.Hand

end
-- ==== Proof.Bits.U0Frame.lean ====
import proofs.«400831_j17978733101719_3_alg».proof.Proof.Bits.U0Res

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t` of the array the region starts from. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output blocks and the running maximum, denominator and numerator after the body at position `n`: a row block's first
    position starts from the reset values, every other from what the position before left. -/
def outsAt0 (c : Dev nD) : (n : ℕ) → n < cfg0.N → Vec F S512x128 .f32 × Vec F S1024x512 .bf16 × Vec F S512x1 .f32 × Vec F S512x1 .f32 × Vec F S512x128 .f32
  | 0, hn => res0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn =>
    if h0 : (n + 1) % 8 = 0 then
      res0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
    else
      if h1 : (n + 1) % 8 = 7 then
        res0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2.1 (outsAt0 c n (Nat.lt_of_succ_lt hn)).2.2.2.2
      else
        res0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2.1 (outsAt0 c n (Nat.lt_of_succ_lt hn)).2.2.2.2

theorem outsAt0_A (c : Dev nD) (t : Fin cfg0.N) (h0 : t.val % 8 = 0) (h1 : ¬t.val % 8 = 7) :
    outsAt0 V c t.val t.isLt = res0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) := by
  obtain ⟨n, hn⟩ := t
  cases n with
  | zero => exact rfl
  | succ n => exact (dif_pos h0)

theorem outsAt0_B (c : Dev nD) (t : Fin cfg0.N) (h0 : ¬t.val % 8 = 0) (h1 : ¬t.val % 8 = 7) :
    outsAt0 V c t.val t.isLt = res0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = res0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

def Rest0 (c : Dev nD) : sProp 𝕄 :=
  iprop(anyAt c cc1_stg0_0 ∗ anyAt c cc1_stg0_1 ∗ anyAt c cc1_stg1_0 ∗ anyAt c cc1_stg2_0 ∗ anyAt c cc1_stg2_1 ∗ anyAt c cc1_stg3_0 ∗ anyAt c cc1_stg4_0 ∗ anyAt c cc1_stg5_0 ∗ anyAt c cc1_stg5_1 ∗ anyAt c cc1_scratch0 ∗ anyAt c cc1_scratch1 ∗ anyAt c cc1_scratch2)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ Rest0 c) ∗ (∃ r, prngReg c r)) := by
  unfold Pipeline.ΦA Rest0 anyAt; rw [scopedRest0_eq]; simp only [scM0_0, scM0_1, scM0_2, owns_whole]; try rfl

/-- Between positions the running maximum, denominator and numerator hold what the position before left (anything before the first). -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2.1) ∗ owns (c : Thread nD τ) scM0_2 fullShare ((outsAt0 V c (n - 1) (by omega)).2.2.2.2) ∗ Rest0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 8000000 in
/-- The body at `t` carries that invariant from `t` to `t + 1` and leaves each window's block as the proof data say, by cases on where
    `t` stands in its row block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 6 t = owns (c : Thread nD τ) (ms0_6 t) fullShare ((dat0 V c).after 6 t) from by
    unfold Dat.leavesExact; rw [liveAt0_6 t], after0_6]
  by_cases h0 : t.val % 8 = 0
  · have h1 : ¬t.val % 8 = 7 := by omega
    rw [Dat.leavesExact_idle (dat0 V c) 5 t (idleAt0_5 t (fun h => h1 ((hcond0_1 t).mp h))) (noFlush0_5 t (fun h => h1 ((hcond0_1 t).mp h)))]
    rw [outsAt0_A V c t h0 h1]
    unfold res0_A; (try dsimp only)
    by_cases hz : t.val = 0
    · rw [PhiS0_castSucc V c t, PhiS0_zero V c _ _ hz, PhiA0_eq]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2.2 _ Set.univ _)
      iframe H0 H1 H2 H3 H4 H5 HS0 HS1 HS2
      isplitl [H6]; · iexists _; iexact H6
      iintro ⟨H0, H1, H2, H3, H4, H5, ⟨%e6, H6⟩, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover0_A_0 (y := y) ..); iexact HS0
        isplitl [HS1]; · iapply owns_of_cover _ _ _ _ _ _ (fun y => scover0_A_1 (y := y) ..); iexact HS1
        iapply owns_of_cover _ _ _ _ _ _ (fun y => scover0_A_2 (y := y) ..); iexact HS2
      isplitl [H5]; · iexists _; iexact H5
      iapply owns_of_cover _ _ _ _ _ _ (fun y => cover0_A_6 (y := y) ..); iexact H6
    · rw [PhiS0_castSucc V c t, PhiS0_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2.2 _ Set.univ _)
      iframe H0 H1 H2 H3 H4 H5
      isplitl [H6]; · iexists _; iexact H6
      isplitl [HS0]; · iexists _; iexact HS0
      isplitl [HS1]; · iexists _; iexact HS1
      isplitl [HS2]; · iexists _; iexact HS2
      iintro ⟨H0, H1, H2, H3, H4, H5, ⟨%e6, H6⟩, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover0_A_0 (y := y) ..); iexact HS0
        isplitl [HS1]; · iapply owns_of_cover _ _ _ _ _ _ (fun y => scover0_A_1 (y := y) ..); iexact HS1
        iapply owns_of_cover _ _ _ _ _ _ (fun y => scover0_A_2 (y := y) ..); iexact HS2
      isplitl [H5]; · iexists _; iexact H5
      iapply owns_of_cover _ _ _ _ _ _ (fun y => cover0_A_6 (y := y) ..); iexact H6
  · have hz : t.val ≠ 0 := by intro h; rw [h] at h0; exact h0 (Nat.zero_mod _)
    by_cases h1 : t.val % 8 = 7
    · rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold res0_C; (try dsimp only)
      rw [PhiS0_castSucc V c t, PhiS0_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _ _).2.2.2.2.2 Set.univ _)
      iframe H0 H1 H2 H3 H4 HS0 HS1 HS2
      isplitl [H5]; · iexists _; iexact H5
      isplitl [H6]; · iexists _; iexact H6
      iintro ⟨H0, H1, H2, H3, H4, ⟨%e5, H5⟩, ⟨%e6, H6⟩, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover0_C_0 (y := y) ..); iexact HS0
        isplitl [HS1]; · iapply owns_of_cover _ _ _ _ _ _ (fun y => scover0_C_1 (y := y) ..); iexact HS1
        iapply owns_of_cover _ _ _ _ _ _ (fun y => scover0_C_2 (y := y) ..); iexact HS2
      isplitl [H5]; · iapply owns_of_cover _ _ _ _ _ _ (fun y => cover0_C_5 (y := y) ..); iexact H5
      iapply owns_of_cover _ _ _ _ _ _ (fun y => cover0_C_6 (y := y) ..); iexact H6
    · rw [Dat.leavesExact_idle (dat0 V c) 5 t (idleAt0_5 t (fun h => h1 ((hcond0_1 t).mp h))) (noFlush0_5 t (fun h => h1 ((hcond0_1 t).mp h)))]
      rw [outsAt0_B V c t h0 h1]
      unfold res0_B; (try dsimp only)
      rw [PhiS0_castSucc V c t, PhiS0_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _ _).2.2.2.2.2 _ Set.univ _)
      iframe H0 H1 H2 H3 H4 H5 HS0 HS1 HS2
      isplitl [H6]; · iexists _; iexact H6
      iintro ⟨H0, H1, H2, H3, H4, H5, ⟨%e6, H6⟩, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover0_B_0 (y := y) ..); iexact HS0
        isplitl [HS1]; · iapply owns_of_cover _ _ _ _ _ _ (fun y => scover0_B_1 (y := y) ..); iexact HS1
        iapply owns_of_cover _ _ _ _ _ _ (fun y => scover0_B_2 (y := y) ..); iexact HS2
      isplitl [H5]; · iexists _; iexact H5
      iapply owns_of_cover _ _ _ _ _ _ (fun y => cover0_B_6 (y := y) ..); iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

theorem hout0 (c : Dev nD) : (dat0 V c).Φ (Fin.last cfg0.N) ⊢ Pipeline.ΦA spec0 c :=
  Phi_out0 V c _ (by rw [Fin.val_last]; have : cfg0.N = 256 := N_0; omega)

end Region0

end Cert.Kernel.Hand

end
-- ==== Proof.Bits.U1Defs.lean ====
import proofs.«400831_j17978733101719_3_alg».proof.Proof.Bits.U0Defs
import proofs.«400831_j17978733101719_3_alg».proof.Proof.Gen.Kernel.Launch
import proofs.«400831_j17978733101719_3_alg».proof.Proof.Gen.Kernel.Skeleton
import proofs.«400831_j17978733101719_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken where the coordinate along the streamed axis is 0, the finishing branch where it is the last. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)

abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x128 .f32 := scM1_2.view
abbrev VO1_5 : View sig .tc .vmem S1024x128 .f32 := (Memref.whole cc1_stg5_0 : Memref sig .tc .vmem S1024x128 .f32).view

end Cert.Kernel.Hand

end
-- ==== Proof.Bits.U1Run.lean ====
import proofs.«400831_j17978733101719_3_alg».proof.Proof.Bits.U1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S1024x128 .f32) (harg2 : arg2.IsWhole) (arg3 : Memref sig .tc .vmem S16384x128 .f32) (harg3 : arg3.IsWhole) (arg4 : Memref sig .tc .vmem S1024x512 .bf16) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)

set_option maxHeartbeats 4000000 in
noncomputable def kernelRun1_B (hc0 : ¬cond1_0 i) (hc1 : ¬cond1_1 i)
    (x0 : Vec F S1024x128 .f32) (x1 : Vec F S16384x128 .f32) (x2 : Vec F S1024x512 .bf16) (x3 : Vec F S128x128 .f32) (x4 : Vec F S1x128 .f32)
    (xs0 : Vec F S1024x1 .f32) (xs1 : Vec F S1024x1 .f32) (xs2 : Vec F S1024x128 .f32) :
    Σ' (L5 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__item_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__item_kernel_eq_skeleton]; unfold cc1__item_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

set_option maxHeartbeats 4000000 in
noncomputable def kernelRun1_A (hc0 : cond1_0 i) (hc1 : ¬cond1_1 i)
    (x0 : Vec F S1024x128 .f32) (x1 : Vec F S16384x128 .f32) (x2 : Vec F S1024x512 .bf16) (x3 : Vec F S128x128 .f32) (x4 : Vec F S1x128 .f32) :
    Σ' (L5 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__item_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__item_kernel_eq_skeleton]; unfold cc1__item_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

set_option maxHeartbeats 4000000 in
noncomputable def kernelRun1_C (hc0 : ¬cond1_0 i) (hc1 : cond1_1 i)
    (x0 : Vec F S1024x128 .f32) (x1 : Vec F S16384x128 .f32) (x2 : Vec F S1024x512 .bf16) (x3 : Vec F S128x128 .f32) (x4 : Vec F S1x128 .f32)
    (xs0 : Vec F S1024x1 .f32) (xs1 : Vec F S1024x1 .f32) (xs2 : Vec F S1024x128 .f32) :
    Σ' (L5 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__item_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__item_kernel_eq_skeleton]; unfold cc1__item_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Hand

end
-- ==== Proof.Bits.U1Res.lean ====
import proofs.«400831_j17978733101719_3_alg».proof.Proof.Bits.U1Run

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]
variable (c : Dev nD) (i : grid1.Coords) (arg2 : Memref sig .tc .vmem S1024x128 .f32) (harg2 : arg2.IsWhole) (arg3 : Memref sig .tc .vmem S16384x128 .f32) (harg3 : arg3.IsWhole) (arg4 : Memref sig .tc .vmem S1024x512 .bf16) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)

section A
variable (hc0 : cond1_0 i) (hc1 : ¬cond1_1 i) (x0 : Vec F S1024x128 .f32) (x1 : Vec F S16384x128 .f32) (x2 : Vec F S1024x512 .bf16) (x3 : Vec F S128x128 .f32) (x4 : Vec F S1x128 .f32)

/-- What the body leaves in the output blocks and the three running buffers, case by case: the values its stores wrote, read back. -/
def res1_A : Vec F S1024x128 .f32 × Vec F S1024x1 .f32 × Vec F S1024x1 .f32 × Vec F S1024x128 .f32 :=
  (VO1_5.read (Elt F) (VO1_5.writes (Elt F) VO1_5.junk (kernelRun1_A c i arg2 harg2 arg3 harg3 arg4 harg4 arg5 harg5 arg6 harg6 arg7 harg7 arg8 harg8 arg9 harg9 arg10 harg10 hc0 hc1 x0 x1 x2 x3 x4).1),
   VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).2.1),
   VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4).2.2.1),
   VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2 x3 x4).2.2.2.1))

theorem scover1_A_0 (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL _ S1024x1.size (by sl_kernel_rfl) y
theorem scover1_A_1 (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL _ S1024x1.size (by sl_kernel_rfl) y
theorem scover1_A_2 (y : S1024x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL _ S1024x128.size (by sl_kernel_rfl) y
end A

section B
variable (hc0 : ¬cond1_0 i) (hc1 : ¬cond1_1 i) (x0 : Vec F S1024x128 .f32) (x1 : Vec F S16384x128 .f32) (x2 : Vec F S1024x512 .bf16) (x3 : Vec F S128x128 .f32) (x4 : Vec F S1x128 .f32) (xs0 : Vec F S1024x1 .f32) (xs1 : Vec F S1024x1 .f32) (xs2 : Vec F S1024x128 .f32)

def res1_B : Vec F S1024x128 .f32 × Vec F S1024x1 .f32 × Vec F S1024x1 .f32 × Vec F S1024x128 .f32 :=
  (VO1_5.read (Elt F) (VO1_5.writes (Elt F) VO1_5.junk (kernelRun1_B c i arg2 harg2 arg3 harg3 arg4 harg4 arg5 harg5 arg6 harg6 arg7 harg7 arg8 harg8 arg9 harg9 arg10 harg10 hc0 hc1 x0 x1 x2 x3 x4 xs0 xs1 xs2).1),
   VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1 xs2).2.1),
   VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.1),
   VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1))

theorem scover1_B_0 (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL _ S1024x1.size (by sl_kernel_rfl) y
theorem scover1_B_1 (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL _ S1024x1.size (by sl_kernel_rfl) y
theorem scover1_B_2 (y : S1024x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL _ S1024x128.size (by sl_kernel_rfl) y
end B

section C
variable (hc0 : ¬cond1_0 i) (hc1 : cond1_1 i) (x0 : Vec F S1024x128 .f32) (x1 : Vec F S16384x128 .f32) (x2 : Vec F S1024x512 .bf16) (x3 : Vec F S128x128 .f32) (x4 : Vec F S1x128 .f32) (xs0 : Vec F S1024x1 .f32) (xs1 : Vec F S1024x1 .f32) (xs2 : Vec F S1024x128 .f32)

def res1_C : Vec F S1024x128 .f32 × Vec F S1024x1 .f32 × Vec F S1024x1 .f32 × Vec F S1024x128 .f32 :=
  (VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0 xs1 xs2).1),
   VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0 xs1 xs2).2.1),
   VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.1),
   VS1_2.read (Elt F) (VS1_2.writes (Elt F) VS1_2.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1))

theorem scover1_C_0 (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL _ S1024x1.size (by sl_kernel_rfl) y
theorem scover1_C_1 (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL _ S1024x1.size (by sl_kernel_rfl) y
theorem scover1_C_2 (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL _ S1024x128.size (by sl_kernel_rfl) y
theorem cover1_C_5 (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL _ S1024x128.size (by sl_kernel_rfl) y
end C

end Cert.Kernel.Hand

end
-- ==== Proof.Bits.U1Frame.lean ====
import proofs.«400831_j17978733101719_3_alg».proof.Proof.Bits.U1Res

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t` of the array the region starts from. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output blocks and the running maximum, denominator and numerator after the body at position `n`: a row block's first
    position starts from the reset values, every other from what the position before left. -/
def outsAt1 (c : Dev nD) : (n : ℕ) → n < cfg1.N → Vec F S1024x128 .f32 × Vec F S1024x1 .f32 × Vec F S1024x1 .f32 × Vec F S1024x128 .f32
  | 0, hn => res1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 32 = 0 then
      res1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 32 = 31 then
        res1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2
      else
        res1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 32 = 0) (h1 : ¬t.val % 32 = 31) :
    outsAt1 V c t.val t.isLt = res1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0)

theorem outsAt1_B (c : Dev nD) (t : Fin cfg1.N) (h0 : ¬t.val % 32 = 0) (h1 : ¬t.val % 32 = 31) :
    outsAt1 V c t.val t.isLt = res1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = res1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def Rest1 (c : Dev nD) : sProp 𝕄 :=
  iprop(anyAt c cc0_stg0_0 ∗ anyAt c cc0_stg0_1 ∗ anyAt c cc0_stg1_0 ∗ anyAt c cc0_stg2_0 ∗ anyAt c cc0_stg2_1 ∗ anyAt c cc0_stg3_0 ∗ anyAt c cc0_stg4_0 ∗ anyAt c cc0_stg5_0 ∗ anyAt c cc0_stg5_1 ∗ anyAt c cc0_stg6_0 ∗ anyAt c cc0_stg6_1 ∗ anyAt c cc0_scratch0 ∗ anyAt c cc0_scratch1 ∗ anyAt c cc0_scratch2)

theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ Rest1 c) ∗ (∃ r, prngReg c r)) := by
  unfold Pipeline.ΦA Rest1 anyAt; rw [scopedRest1_eq]; simp only [scM1_0, scM1_1, scM1_2, owns_whole]
  refine BI.Entails.antisymm (show (_ : sProp 𝕄) ⊢ _ from ?_) (show (_ : sProp 𝕄) ⊢ _ from ?_)
  · iintro ⟨⟨R0, R1, R2, R3, R4, R5, R6, R7, R8, R9, R10, R11, R12, R13, HS0, HS1, HS2⟩, Hg⟩; iframe
  · iintro ⟨⟨HS0, HS1, HS2, R0, R1, R2, R3, R4, R5, R6, R7, R8, R9, R10, R11, R12, R13⟩, Hg⟩; iframe

/-- Between positions the running maximum, denominator and numerator hold what the position before left (anything before the first). -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ Rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t)

set_option maxHeartbeats 8000000 in
/-- The body at `t` carries that invariant from `t` to `t + 1` and leaves each window's block as the proof data say, by cases on where
    `t` stands in its row block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 32 = 0
  · have h1 : ¬t.val % 32 = 31 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold res1_A; (try dsimp only)
    by_cases hz : t.val = 0
    · rw [PhiS1_castSucc V c t, PhiS1_zero V c _ _ hz, PhiA1_eq]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
      iframe H0 H1 H2 H3 H4 H5 HS0 HS1 HS2
      iintro ⟨H0, H1, H2, H3, H4, H5, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover1_A_0 (y := y) ..); iexact HS0
        isplitl [HS1]; · iapply owns_of_cover _ _ _ _ _ _ (fun y => scover1_A_1 (y := y) ..); iexact HS1
        iapply owns_of_cover _ _ _ _ _ _ (fun y => scover1_A_2 (y := y) ..); iexact HS2
      iexists _; iexact H5
    · rw [PhiS1_castSucc V c t, PhiS1_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
      iframe H0 H1 H2 H3 H4 H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover1_A_0 (y := y) ..); iexact HS0
        isplitl [HS1]; · iapply owns_of_cover _ _ _ _ _ _ (fun y => scover1_A_1 (y := y) ..); iexact HS1
        iapply owns_of_cover _ _ _ _ _ _ (fun y => scover1_A_2 (y := y) ..); iexact HS2
      iexists _; iexact H5
  · have hz : t.val ≠ 0 := by intro h; rw [h] at h0; exact h0 (Nat.zero_mod _)
    by_cases h1 : t.val % 32 = 31
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold res1_C; (try dsimp only)
      rw [PhiS1_castSucc V c t, PhiS1_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
      iframe H0 H1 H2 H3 H4 HS0 HS1 HS2
      isplitl [H5]; · iexists _; iexact H5
      iintro ⟨H0, H1, H2, H3, H4, ⟨%e5, H5⟩, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover1_C_0 (y := y) ..); iexact HS0
        isplitl [HS1]; · iapply owns_of_cover _ _ _ _ _ _ (fun y => scover1_C_1 (y := y) ..); iexact HS1
        iapply owns_of_cover _ _ _ _ _ _ (fun y => scover1_C_2 (y := y) ..); iexact HS2
      iapply owns_of_cover _ _ _ _ _ _ (fun y => cover1_C_5 (y := y) ..); iexact H5
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold res1_B; (try dsimp only)
      rw [PhiS1_castSucc V c t, PhiS1_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2.2 _ Set.univ _)
      iframe H0 H1 H2 H3 H4 H5 HS0 HS1 HS2
      iintro ⟨H0, H1, H2, H3, H4, H5, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover1_B_0 (y := y) ..); iexact HS0
        isplitl [HS1]; · iapply owns_of_cover _ _ _ _ _ _ (fun y => scover1_B_1 (y := y) ..); iexact HS1
        iapply owns_of_cover _ _ _ _ _ _ (fun y => scover1_B_2 (y := y) ..); iexact HS2
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

theorem hout1 (c : Dev nD) : (dat1 V c).Φ (Fin.last cfg1.N) ⊢ Pipeline.ΦA spec1 c :=
  Phi_out1 V c _ (by rw [Fin.val_last]; have : cfg1.N = 256 := N_1; omega)

end Region1

end Cert.Kernel.Hand

end
-- ==== Proof.Bits.URun.lean ====
import proofs.«400831_j17978733101719_3_alg».proof.Proof.Gen.Kernel.Regions
import proofs.«400831_j17978733101719_3_alg».proof.Proof.Bits.UEntry
import proofs.«400831_j17978733101719_3_alg».proof.Proof.Bits.U0Frame
import proofs.«400831_j17978733101719_3_alg».proof.Proof.Bits.U1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

def pdats : (p : Fin 2) → (c : Dev nD) → Dat τ (Elt F) Unit ℕ (UR sig nD τ) ℕ (Pipeline.pin (pcfgs (F := F)) Gen.adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) Gen.adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.Kernel.Hand

end
-- ==== Proof.Bits.UFrameOf.lean ====
import proofs.«400831_j17978733101719_3_alg».proof.Proof.Bits.URun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_arg0 (c : Dev nD) : W3 m c (Proc.devRef .tc main_arg0) = m ((c : Thread nD τ).loc main_arg0) :=
  calc W3 m c (Proc.devRef .tc main_arg0)
    _ = W2 m c (Proc.devRef .tc main_arg0) := (W3_arr m c 1).trans (((dat1 (V2 m) c).arrAt_in 1 rfl _).trans (A_eq1 (V2 m) c 1))
    _ = W1 m c (Proc.devRef .tc main_arg0) := (W2_arr m c 0).trans (((dat0 (V1 m) c).arrAt_in 0 rfl _).trans (A_eq0 (V1 m) c 0))
    _ = m ((c : Thread nD τ).loc main_arg0) := Gen.V1_of m c main_arg0 (by decide)
theorem W3_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := (W2_arr m c 1).trans (((dat0 (V1 m) c).arrAt_in 1 rfl _).trans (A_eq0 (V1 m) c 1))
    _ = m ((c : Thread nD τ).loc main_arg1) := Gen.V1_of m c main_arg1 (by decide)
theorem W3_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = m ((c : Thread nD τ).loc main_arg2) := Gen.V1_of m c main_arg2 (by decide)
theorem W3_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)
theorem W3_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := Gen.V1_of m c main_arg4 (by decide)

theorem W3_res0 (c : Dev nD) : W3 m c (Proc.devRef .tc main_v2_0) = (dat0 (V1 m) c).arrAt 5 cfg0.N :=
  (W3_of_ne m c main_v2_0 (by decide)).trans (W2_arr m c 5)
theorem W3_res1 (c : Dev nD) : W3 m c (Proc.devRef .tc main_v3) = (dat1 (V2 m) c).arrAt 5 cfg1.N :=
  W3_arr m c 5

theorem V2_relay (c : Dev nD) : V2 m c main_v2_1 = (dat0 (V1 m) c).arrAt 6 cfg0.N := W2_arr m c 6
theorem V2_arg0 (c : Dev nD) : V2 m c main_arg0 = m ((c : Thread nD τ).loc main_arg0) :=
  ((W2_arr m c 0).trans (((dat0 (V1 m) c).arrAt_in 0 rfl _).trans (A_eq0 (V1 m) c 0))).trans (Gen.V1_of m c main_arg0 (by decide))
theorem V2_arg1 (c : Dev nD) : V2 m c main_arg1 = m ((c : Thread nD τ).loc main_arg1) :=
  ((W2_arr m c 1).trans (((dat0 (V1 m) c).arrAt_in 1 rfl _).trans (A_eq0 (V1 m) c 1))).trans (Gen.V1_of m c main_arg1 (by decide))
theorem V2_v0 (c : Dev nD) : V2 m c main_v0 = V1 m c main_v0 :=
  (W2_arr m c 3).trans (((dat0 (V1 m) c).arrAt_in 3 rfl _).trans (A_eq0 (V1 m) c 3))
theorem V2_v1 (c : Dev nD) : V2 m c main_v1 = V1 m c main_v1 :=
  (W2_arr m c 4).trans (((dat0 (V1 m) c).arrAt_in 4 rfl _).trans (A_eq0 (V1 m) c 4))

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_arg0 m c),
     (h c _ (mem_uc main_arg1 (by decide))).trans (W3_arg1 m c),
     (h c _ (mem_uc main_arg2 (by decide))).trans (W3_arg2 m c),
     (h c _ (mem_uc main_arg3 (by decide))).trans (W3_arg3 m c),
     (h c _ (mem_uc main_arg4 (by decide))).trans (W3_arg4 m c)⟩) (run_all m ρ)

end Cert.Kernel.Hand

end
-- ==== Proof.U0Defs.lean ====
import proofs.«400831_j17978733101719_3_alg».proof.Proof.Gen.KernelIdeal.Launch
import proofs.«400831_j17978733101719_3_alg».proof.Proof.Gen.KernelIdeal.Skeleton
import proofs.«400831_j17978733101719_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer of core `c` held at any contents. -/
abbrev anyAt (c : Dev nD) (b : Ref sig .tc) : sProp 𝕄 :=
  iprop(∃ f : Buf (Elt F) ((c : Thread nD τ).loc b), ((c : Thread nD τ).loc b) ↦{fullShare} f)

/-- A buffer held at a list of writes that covers its shape is owned at those writes read back, whatever was there before. -/
theorem owns_of_cover (c : Thread nD τ) {sh : Shape} {e : EltTy} (m : Memref sig c.2.kind .vmem sh e) (v' : View sig c.2.kind .vmem sh e)
    (f' : v'.ty.Contents (Elt F)) (L : List (View.Piece (Elt F) sh e)) (f : m.view.ty.Contents (Elt F)) (h : ∀ y, ∃ p ∈ L, y ∈ p.1.set) :
    (m.view.loc c ↦[m.view.set]{fullShare} m.view.writes (Elt F) f L : sProp 𝕄) ⊢ owns c m fullShare (v'.read (Elt F) (v'.writes (Elt F) f' L)) :=
  View.read_writes_of_cover m.view f v' f' L h ▸ owns_intro c m fullShare _

/-- The reset branch is taken where the coordinate along the streamed axis is 0, the finishing branch where it is the last. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_6 : ∀ t : Fin cfg0.N, cfg0.idle 6 (grid0.coords t) = false := by decide +kernel

theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .bf16 := win0_6.stage (cfg0.slots t 6)
abbrev hs0_6 (t : Fin cfg0.N) : (ms0_6 t).IsWhole := hstage0_6 ((cfg0.slots t 6).cast nbuf0_6)

abbrev scM0_0 : Memref sig .tc .vmem S512x1 .f32 := Memref.whole cc0_scratch0
abbrev scM0_1 : Memref sig .tc .vmem S512x1 .f32 := Memref.whole cc0_scratch1
abbrev scM0_2 : Memref sig .tc .vmem S512x128 .f32 := Memref.whole cc0_scratch2
abbrev VS0_0 : View sig .tc .vmem S512x1 .f32 := scM0_0.view
abbrev VS0_1 : View sig .tc .vmem S512x1 .f32 := scM0_1.view
abbrev VS0_2 : View sig .tc .vmem S512x128 .f32 := scM0_2.view
abbrev VO0_5 : View sig .tc .vmem S512x128 .f32 := (Memref.whole cc0_stg5_0 : Memref sig .tc .vmem S512x128 .f32).view
abbrev VO0_6 : View sig .tc .vmem S1024x512 .bf16 := (Memref.whole cc0_stg6_0 : Memref sig .tc .vmem S1024x512 .bf16).view

end Cert.KernelIdeal.Hand

end
-- ==== Proof.UEntry.lean ====
import proofs.«400831_j17978733101719_3_alg».proof.Proof.U0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

end Cert.KernelIdeal.Hand

end
-- ==== Proof.U0Run.lean ====
import proofs.«400831_j17978733101719_3_alg».proof.Proof.U0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x128 .f32) (harg2 : arg2.IsWhole) (arg3 : Memref sig .tc .vmem S8192x128 .f32) (harg3 : arg3.IsWhole) (arg4 : Memref sig .tc .vmem S512x1024 .i32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S1024x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x128 .f32) (harg11 : arg11.IsWhole)

set_option maxHeartbeats 4000000 in
noncomputable def kernelRun0_B (hc0 : ¬cond0_0 i) (hc1 : ¬cond0_1 i)
    (x0 : Vec F S512x128 .f32) (x1 : Vec F S8192x128 .f32) (x2 : Vec F S512x1024 .i32) (x3 : Vec F S128x128 .f32) (x4 : Vec F S1x128 .f32)
    (xs0 : Vec F S512x1 .f32) (xs1 : Vec F S512x1 .f32) (xs2 : Vec F S512x128 .f32) :
    Σ' (L5 : List (View.Piece (Elt F) S512x128 .f32)) (L6 : List (View.Piece (Elt F) S1024x512 .bf16)) (LS0 : List (View.Piece (Elt F) S512x1 .f32)) (LS1 : List (View.Piece (Elt F) S512x1 .f32)), { LS2 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__user_kernel i arg2 harg2 arg3 harg3 arg4 harg4 arg5 harg5 arg6 harg6 arg7 harg7 arg8 harg8 arg9 harg9 arg10 harg10 arg11 harg11) K } := by
  refine ⟨[], ?_, ?_, ?_, ?_, fun xi5 E K => ?run⟩
  case run =>
    simp only [cc0__user_kernel_eq_skeleton]; unfold cc0__user_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

set_option maxHeartbeats 4000000 in
noncomputable def kernelRun0_A (hc0 : cond0_0 i) (hc1 : ¬cond0_1 i)
    (x0 : Vec F S512x128 .f32) (x1 : Vec F S8192x128 .f32) (x2 : Vec F S512x1024 .i32) (x3 : Vec F S128x128 .f32) (x4 : Vec F S1x128 .f32) :
    Σ' (L5 : List (View.Piece (Elt F) S512x128 .f32)) (L6 : List (View.Piece (Elt F) S1024x512 .bf16)) (LS0 : List (View.Piece (Elt F) S512x1 .f32)) (LS1 : List (View.Piece (Elt F) S512x1 .f32)), { LS2 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__user_kernel i arg2 harg2 arg3 harg3 arg4 harg4 arg5 harg5 arg6 harg6 arg7 harg7 arg8 harg8 arg9 harg9 arg10 harg10 arg11 harg11) K } := by
  refine ⟨[], ?_, ?_, ?_, ?_, fun xi5 E K => ?run⟩
  case run =>
    simp only [cc0__user_kernel_eq_skeleton]; unfold cc0__user_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

set_option maxHeartbeats 4000000 in
noncomputable def kernelRun0_C (hc0 : ¬cond0_0 i) (hc1 : cond0_1 i)
    (x0 : Vec F S512x128 .f32) (x1 : Vec F S8192x128 .f32) (x2 : Vec F S512x1024 .i32) (x3 : Vec F S128x128 .f32) (x4 : Vec F S1x128 .f32)
    (xs0 : Vec F S512x1 .f32) (xs1 : Vec F S512x1 .f32) (xs2 : Vec F S512x128 .f32) :
    Σ' (L5 : List (View.Piece (Elt F) S512x128 .f32)) (L6 : List (View.Piece (Elt F) S1024x512 .bf16)) (LS0 : List (View.Piece (Elt F) S512x1 .f32)) (LS1 : List (View.Piece (Elt F) S512x1 .f32)), { LS2 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__user_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__user_kernel_eq_skeleton]; unfold cc0__user_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    iexists _; iexact HS2

end Cert.KernelIdeal.Hand

end
-- ==== Proof.U0Res.lean ====
import proofs.«400831_j17978733101719_3_alg».proof.Proof.U0Run

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (c : Dev nD) (i : grid0.Coords) (arg2 : Memref sig .tc .vmem S512x128 .f32) (harg2 : arg2.IsWhole) (arg3 : Memref sig .tc .vmem S8192x128 .f32) (harg3 : arg3.IsWhole) (arg4 : Memref sig .tc .vmem S512x1024 .i32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S1024x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x128 .f32) (harg11 : arg11.IsWhole)

section A
variable (hc0 : cond0_0 i) (hc1 : ¬cond0_1 i) (x0 : Vec F S512x128 .f32) (x1 : Vec F S8192x128 .f32) (x2 : Vec F S512x1024 .i32) (x3 : Vec F S128x128 .f32) (x4 : Vec F S1x128 .f32)

/-- What the body leaves in the output blocks and the three running buffers, case by case: the values its stores wrote, read back. -/
def res0_A : Vec F S512x128 .f32 × Vec F S1024x512 .bf16 × Vec F S512x1 .f32 × Vec F S512x1 .f32 × Vec F S512x128 .f32 :=
  (VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3 x4).1),
   VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2 x3 x4).2.1),
   VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4).2.2.1),
   VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4).2.2.2.1),
   VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3 x4).2.2.2.2.1))

theorem cover0_A_6 (y : S1024x512.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL _ S1024x512.size (by sl_kernel_rfl) y
theorem scover0_A_0 (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL _ S512x1.size (by sl_kernel_rfl) y
theorem scover0_A_1 (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL _ S512x1.size (by sl_kernel_rfl) y
theorem scover0_A_2 (y : S512x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.2.2.1, y ∈ pc.1.set :=
  View.cover_of_tiledL _ S512x128.size (by sl_kernel_rfl) y
end A

section B
variable (hc0 : ¬cond0_0 i) (hc1 : ¬cond0_1 i) (x0 : Vec F S512x128 .f32) (x1 : Vec F S8192x128 .f32) (x2 : Vec F S512x1024 .i32) (x3 : Vec F S128x128 .f32) (x4 : Vec F S1x128 .f32) (xs0 : Vec F S512x1 .f32) (xs1 : Vec F S512x1 .f32) (xs2 : Vec F S512x128 .f32)

def res0_B : Vec F S512x128 .f32 × Vec F S1024x512 .bf16 × Vec F S512x1 .f32 × Vec F S512x1 .f32 × Vec F S512x128 .f32 :=
  (VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).1),
   VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.1),
   VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.1),
   VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.1),
   VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.1))

theorem cover0_B_6 (y : S1024x512.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL _ S1024x512.size (by sl_kernel_rfl) y
theorem scover0_B_0 (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL _ S512x1.size (by sl_kernel_rfl) y
theorem scover0_B_1 (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL _ S512x1.size (by sl_kernel_rfl) y
theorem scover0_B_2 (y : S512x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.1, y ∈ pc.1.set :=
  View.cover_of_tiledL _ S512x128.size (by sl_kernel_rfl) y
end B

section C
variable (hc0 : ¬cond0_0 i) (hc1 : cond0_1 i) (x0 : Vec F S512x128 .f32) (x1 : Vec F S8192x128 .f32) (x2 : Vec F S512x1024 .i32) (x3 : Vec F S128x128 .f32) (x4 : Vec F S1x128 .f32) (xs0 : Vec F S512x1 .f32) (xs1 : Vec F S512x1 .f32) (xs2 : Vec F S512x128 .f32)

def res0_C : Vec F S512x128 .f32 × Vec F S1024x512 .bf16 × Vec F S512x1 .f32 × Vec F S512x1 .f32 × Vec F S512x128 .f32 :=
  (VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1),
   VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1),
   VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.1),
   VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.1),
   VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.1))

theorem cover0_C_6 (y : S1024x512.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL _ S1024x512.size (by sl_kernel_rfl) y
theorem scover0_C_0 (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL _ S512x1.size (by sl_kernel_rfl) y
theorem scover0_C_1 (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL _ S512x1.size (by sl_kernel_rfl) y
theorem scover0_C_2 (y : S512x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.1, y ∈ pc.1.set :=
  View.cover_of_tiledL _ S512x128.size (by sl_kernel_rfl) y
theorem cover0_C_5 (y : S512x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL _ S512x128.size (by sl_kernel_rfl) y
end C

end Cert.KernelIdeal.Hand

end
-- ==== Proof.U0Frame.lean ====
import proofs.«400831_j17978733101719_3_alg».proof.Proof.U0Res

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t` of the array the region starts from. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output blocks and the running maximum, denominator and numerator after the body at position `n`: a row block's first
    position starts from the reset values, every other from what the position before left. -/
def outsAt0 (c : Dev nD) : (n : ℕ) → n < cfg0.N → Vec F S512x128 .f32 × Vec F S1024x512 .bf16 × Vec F S512x1 .f32 × Vec F S512x1 .f32 × Vec F S512x128 .f32
  | 0, hn => res0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn =>
    if h0 : (n + 1) % 8 = 0 then
      res0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
    else
      if h1 : (n + 1) % 8 = 7 then
        res0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2.1 (outsAt0 c n (Nat.lt_of_succ_lt hn)).2.2.2.2
      else
        res0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2.1 (outsAt0 c n (Nat.lt_of_succ_lt hn)).2.2.2.2

theorem outsAt0_A (c : Dev nD) (t : Fin cfg0.N) (h0 : t.val % 8 = 0) (h1 : ¬t.val % 8 = 7) :
    outsAt0 V c t.val t.isLt = res0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) := by
  obtain ⟨n, hn⟩ := t
  cases n with
  | zero => exact rfl
  | succ n => exact (dif_pos h0)

theorem outsAt0_B (c : Dev nD) (t : Fin cfg0.N) (h0 : ¬t.val % 8 = 0) (h1 : ¬t.val % 8 = 7) :
    outsAt0 V c t.val t.isLt = res0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = res0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

def Rest0 (c : Dev nD) : sProp 𝕄 :=
  iprop(anyAt c cc1_stg0_0 ∗ anyAt c cc1_stg0_1 ∗ anyAt c cc1_stg1_0 ∗ anyAt c cc1_stg2_0 ∗ anyAt c cc1_stg2_1 ∗ anyAt c cc1_stg3_0 ∗ anyAt c cc1_stg4_0 ∗ anyAt c cc1_stg5_0 ∗ anyAt c cc1_stg5_1 ∗ anyAt c cc1_scratch0 ∗ anyAt c cc1_scratch1 ∗ anyAt c cc1_scratch2)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ Rest0 c) ∗ (∃ r, prngReg c r)) := by
  unfold Pipeline.ΦA Rest0 anyAt; rw [scopedRest0_eq]; simp only [scM0_0, scM0_1, scM0_2, owns_whole]; try rfl

/-- Between positions the running maximum, denominator and numerator hold what the position before left (anything before the first). -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2.1) ∗ owns (c : Thread nD τ) scM0_2 fullShare ((outsAt0 V c (n - 1) (by omega)).2.2.2.2) ∗ Rest0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 8000000 in
/-- The body at `t` carries that invariant from `t` to `t + 1` and leaves each window's block as the proof data say, by cases on where
    `t` stands in its row block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 6 t = owns (c : Thread nD τ) (ms0_6 t) fullShare ((dat0 V c).after 6 t) from by
    unfold Dat.leavesExact; rw [liveAt0_6 t], after0_6]
  by_cases h0 : t.val % 8 = 0
  · have h1 : ¬t.val % 8 = 7 := by omega
    rw [Dat.leavesExact_idle (dat0 V c) 5 t (idleAt0_5 t (fun h => h1 ((hcond0_1 t).mp h))) (noFlush0_5 t (fun h => h1 ((hcond0_1 t).mp h)))]
    rw [outsAt0_A V c t h0 h1]
    unfold res0_A; (try dsimp only)
    by_cases hz : t.val = 0
    · rw [PhiS0_castSucc V c t, PhiS0_zero V c _ _ hz, PhiA0_eq]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2.2 _ Set.univ _)
      iframe H0 H1 H2 H3 H4 H5 HS0 HS1 HS2
      isplitl [H6]; · iexists _; iexact H6
      iintro ⟨H0, H1, H2, H3, H4, H5, ⟨%e6, H6⟩, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover0_A_0 (y := y) ..); iexact HS0
        isplitl [HS1]; · iapply owns_of_cover _ _ _ _ _ _ (fun y => scover0_A_1 (y := y) ..); iexact HS1
        iapply owns_of_cover _ _ _ _ _ _ (fun y => scover0_A_2 (y := y) ..); iexact HS2
      isplitl [H5]; · iexists _; iexact H5
      iapply owns_of_cover _ _ _ _ _ _ (fun y => cover0_A_6 (y := y) ..); iexact H6
    · rw [PhiS0_castSucc V c t, PhiS0_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2.2 _ Set.univ _)
      iframe H0 H1 H2 H3 H4 H5
      isplitl [H6]; · iexists _; iexact H6
      isplitl [HS0]; · iexists _; iexact HS0
      isplitl [HS1]; · iexists _; iexact HS1
      isplitl [HS2]; · iexists _; iexact HS2
      iintro ⟨H0, H1, H2, H3, H4, H5, ⟨%e6, H6⟩, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover0_A_0 (y := y) ..); iexact HS0
        isplitl [HS1]; · iapply owns_of_cover _ _ _ _ _ _ (fun y => scover0_A_1 (y := y) ..); iexact HS1
        iapply owns_of_cover _ _ _ _ _ _ (fun y => scover0_A_2 (y := y) ..); iexact HS2
      isplitl [H5]; · iexists _; iexact H5
      iapply owns_of_cover _ _ _ _ _ _ (fun y => cover0_A_6 (y := y) ..); iexact H6
  · have hz : t.val ≠ 0 := by intro h; rw [h] at h0; exact h0 (Nat.zero_mod _)
    by_cases h1 : t.val % 8 = 7
    · rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold res0_C; (try dsimp only)
      rw [PhiS0_castSucc V c t, PhiS0_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _ _).2.2.2.2.2 Set.univ _)
      iframe H0 H1 H2 H3 H4 HS0 HS1 HS2
      isplitl [H5]; · iexists _; iexact H5
      isplitl [H6]; · iexists _; iexact H6
      iintro ⟨H0, H1, H2, H3, H4, ⟨%e5, H5⟩, ⟨%e6, H6⟩, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover0_C_0 (y := y) ..); iexact HS0
        isplitl [HS1]; · iapply owns_of_cover _ _ _ _ _ _ (fun y => scover0_C_1 (y := y) ..); iexact HS1
        iapply owns_of_cover _ _ _ _ _ _ (fun y => scover0_C_2 (y := y) ..); iexact HS2
      isplitl [H5]; · iapply owns_of_cover _ _ _ _ _ _ (fun y => cover0_C_5 (y := y) ..); iexact H5
      iapply owns_of_cover _ _ _ _ _ _ (fun y => cover0_C_6 (y := y) ..); iexact H6
    · rw [Dat.leavesExact_idle (dat0 V c) 5 t (idleAt0_5 t (fun h => h1 ((hcond0_1 t).mp h))) (noFlush0_5 t (fun h => h1 ((hcond0_1 t).mp h)))]
      rw [outsAt0_B V c t h0 h1]
      unfold res0_B; (try dsimp only)
      rw [PhiS0_castSucc V c t, PhiS0_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _ _).2.2.2.2.2 _ Set.univ _)
      iframe H0 H1 H2 H3 H4 H5 HS0 HS1 HS2
      isplitl [H6]; · iexists _; iexact H6
      iintro ⟨H0, H1, H2, H3, H4, H5, ⟨%e6, H6⟩, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover0_B_0 (y := y) ..); iexact HS0
        isplitl [HS1]; · iapply owns_of_cover _ _ _ _ _ _ (fun y => scover0_B_1 (y := y) ..); iexact HS1
        iapply owns_of_cover _ _ _ _ _ _ (fun y => scover0_B_2 (y := y) ..); iexact HS2
      isplitl [H5]; · iexists _; iexact H5
      iapply owns_of_cover _ _ _ _ _ _ (fun y => cover0_B_6 (y := y) ..); iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

theorem hout0 (c : Dev nD) : (dat0 V c).Φ (Fin.last cfg0.N) ⊢ Pipeline.ΦA spec0 c :=
  Phi_out0 V c _ (by rw [Fin.val_last]; have : cfg0.N = 256 := N_0; omega)

end Region0

end Cert.KernelIdeal.Hand

end
-- ==== Proof.U1Defs.lean ====
import proofs.«400831_j17978733101719_3_alg».proof.Proof.U0Defs
import proofs.«400831_j17978733101719_3_alg».proof.Proof.Gen.KernelIdeal.Launch
import proofs.«400831_j17978733101719_3_alg».proof.Proof.Gen.KernelIdeal.Skeleton
import proofs.«400831_j17978733101719_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken where the coordinate along the streamed axis is 0, the finishing branch where it is the last. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)

abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x128 .f32 := scM1_2.view
abbrev VO1_5 : View sig .tc .vmem S1024x128 .f32 := (Memref.whole cc1_stg5_0 : Memref sig .tc .vmem S1024x128 .f32).view

end Cert.KernelIdeal.Hand

end
-- ==== Proof.U1Run.lean ====
import proofs.«400831_j17978733101719_3_alg».proof.Proof.U1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S1024x128 .f32) (harg2 : arg2.IsWhole) (arg3 : Memref sig .tc .vmem S16384x128 .f32) (harg3 : arg3.IsWhole) (arg4 : Memref sig .tc .vmem S1024x512 .bf16) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)

set_option maxHeartbeats 4000000 in
noncomputable def kernelRun1_B (hc0 : ¬cond1_0 i) (hc1 : ¬cond1_1 i)
    (x0 : Vec F S1024x128 .f32) (x1 : Vec F S16384x128 .f32) (x2 : Vec F S1024x512 .bf16) (x3 : Vec F S128x128 .f32) (x4 : Vec F S1x128 .f32)
    (xs0 : Vec F S1024x1 .f32) (xs1 : Vec F S1024x1 .f32) (xs2 : Vec F S1024x128 .f32) :
    Σ' (L5 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__item_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__item_kernel_eq_skeleton]; unfold cc1__item_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

set_option maxHeartbeats 4000000 in
noncomputable def kernelRun1_A (hc0 : cond1_0 i) (hc1 : ¬cond1_1 i)
    (x0 : Vec F S1024x128 .f32) (x1 : Vec F S16384x128 .f32) (x2 : Vec F S1024x512 .bf16) (x3 : Vec F S128x128 .f32) (x4 : Vec F S1x128 .f32) :
    Σ' (L5 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__item_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__item_kernel_eq_skeleton]; unfold cc1__item_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

set_option maxHeartbeats 4000000 in
noncomputable def kernelRun1_C (hc0 : ¬cond1_0 i) (hc1 : cond1_1 i)
    (x0 : Vec F S1024x128 .f32) (x1 : Vec F S16384x128 .f32) (x2 : Vec F S1024x512 .bf16) (x3 : Vec F S128x128 .f32) (x4 : Vec F S1x128 .f32)
    (xs0 : Vec F S1024x1 .f32) (xs1 : Vec F S1024x1 .f32) (xs2 : Vec F S1024x128 .f32) :
    Σ' (L5 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__item_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__item_kernel_eq_skeleton]; unfold cc1__item_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.U1Res.lean ====
import proofs.«400831_j17978733101719_3_alg».proof.Proof.U1Run

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (c : Dev nD) (i : grid1.Coords) (arg2 : Memref sig .tc .vmem S1024x128 .f32) (harg2 : arg2.IsWhole) (arg3 : Memref sig .tc .vmem S16384x128 .f32) (harg3 : arg3.IsWhole) (arg4 : Memref sig .tc .vmem S1024x512 .bf16) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)

section A
variable (hc0 : cond1_0 i) (hc1 : ¬cond1_1 i) (x0 : Vec F S1024x128 .f32) (x1 : Vec F S16384x128 .f32) (x2 : Vec F S1024x512 .bf16) (x3 : Vec F S128x128 .f32) (x4 : Vec F S1x128 .f32)

/-- What the body leaves in the output blocks and the three running buffers, case by case: the values its stores wrote, read back. -/
def res1_A : Vec F S1024x128 .f32 × Vec F S1024x1 .f32 × Vec F S1024x1 .f32 × Vec F S1024x128 .f32 :=
  (VO1_5.read (Elt F) (VO1_5.writes (Elt F) VO1_5.junk (kernelRun1_A c i arg2 harg2 arg3 harg3 arg4 harg4 arg5 harg5 arg6 harg6 arg7 harg7 arg8 harg8 arg9 harg9 arg10 harg10 hc0 hc1 x0 x1 x2 x3 x4).1),
   VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).2.1),
   VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4).2.2.1),
   VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2 x3 x4).2.2.2.1))

theorem scover1_A_0 (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL _ S1024x1.size (by sl_kernel_rfl) y
theorem scover1_A_1 (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL _ S1024x1.size (by sl_kernel_rfl) y
theorem scover1_A_2 (y : S1024x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL _ S1024x128.size (by sl_kernel_rfl) y
end A

section B
variable (hc0 : ¬cond1_0 i) (hc1 : ¬cond1_1 i) (x0 : Vec F S1024x128 .f32) (x1 : Vec F S16384x128 .f32) (x2 : Vec F S1024x512 .bf16) (x3 : Vec F S128x128 .f32) (x4 : Vec F S1x128 .f32) (xs0 : Vec F S1024x1 .f32) (xs1 : Vec F S1024x1 .f32) (xs2 : Vec F S1024x128 .f32)

def res1_B : Vec F S1024x128 .f32 × Vec F S1024x1 .f32 × Vec F S1024x1 .f32 × Vec F S1024x128 .f32 :=
  (VO1_5.read (Elt F) (VO1_5.writes (Elt F) VO1_5.junk (kernelRun1_B c i arg2 harg2 arg3 harg3 arg4 harg4 arg5 harg5 arg6 harg6 arg7 harg7 arg8 harg8 arg9 harg9 arg10 harg10 hc0 hc1 x0 x1 x2 x3 x4 xs0 xs1 xs2).1),
   VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1 xs2).2.1),
   VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.1),
   VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1))

theorem scover1_B_0 (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL _ S1024x1.size (by sl_kernel_rfl) y
theorem scover1_B_1 (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL _ S1024x1.size (by sl_kernel_rfl) y
theorem scover1_B_2 (y : S1024x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL _ S1024x128.size (by sl_kernel_rfl) y
end B

section C
variable (hc0 : ¬cond1_0 i) (hc1 : cond1_1 i) (x0 : Vec F S1024x128 .f32) (x1 : Vec F S16384x128 .f32) (x2 : Vec F S1024x512 .bf16) (x3 : Vec F S128x128 .f32) (x4 : Vec F S1x128 .f32) (xs0 : Vec F S1024x1 .f32) (xs1 : Vec F S1024x1 .f32) (xs2 : Vec F S1024x128 .f32)

def res1_C : Vec F S1024x128 .f32 × Vec F S1024x1 .f32 × Vec F S1024x1 .f32 × Vec F S1024x128 .f32 :=
  (VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0 xs1 xs2).1),
   VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0 xs1 xs2).2.1),
   VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.1),
   VS1_2.read (Elt F) (VS1_2.writes (Elt F) VS1_2.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1))

theorem scover1_C_0 (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL _ S1024x1.size (by sl_kernel_rfl) y
theorem scover1_C_1 (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL _ S1024x1.size (by sl_kernel_rfl) y
theorem scover1_C_2 (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL _ S1024x128.size (by sl_kernel_rfl) y
theorem cover1_C_5 (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL _ S1024x128.size (by sl_kernel_rfl) y
end C

end Cert.KernelIdeal.Hand

end
-- ==== Proof.U1Frame.lean ====
import proofs.«400831_j17978733101719_3_alg».proof.Proof.U1Res

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t` of the array the region starts from. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output blocks and the running maximum, denominator and numerator after the body at position `n`: a row block's first
    position starts from the reset values, every other from what the position before left. -/
def outsAt1 (c : Dev nD) : (n : ℕ) → n < cfg1.N → Vec F S1024x128 .f32 × Vec F S1024x1 .f32 × Vec F S1024x1 .f32 × Vec F S1024x128 .f32
  | 0, hn => res1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 32 = 0 then
      res1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 32 = 31 then
        res1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2
      else
        res1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 32 = 0) (h1 : ¬t.val % 32 = 31) :
    outsAt1 V c t.val t.isLt = res1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0)

theorem outsAt1_B (c : Dev nD) (t : Fin cfg1.N) (h0 : ¬t.val % 32 = 0) (h1 : ¬t.val % 32 = 31) :
    outsAt1 V c t.val t.isLt = res1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = res1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def Rest1 (c : Dev nD) : sProp 𝕄 :=
  iprop(anyAt c cc0_stg0_0 ∗ anyAt c cc0_stg0_1 ∗ anyAt c cc0_stg1_0 ∗ anyAt c cc0_stg2_0 ∗ anyAt c cc0_stg2_1 ∗ anyAt c cc0_stg3_0 ∗ anyAt c cc0_stg4_0 ∗ anyAt c cc0_stg5_0 ∗ anyAt c cc0_stg5_1 ∗ anyAt c cc0_stg6_0 ∗ anyAt c cc0_stg6_1 ∗ anyAt c cc0_scratch0 ∗ anyAt c cc0_scratch1 ∗ anyAt c cc0_scratch2)

theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ Rest1 c) ∗ (∃ r, prngReg c r)) := by
  unfold Pipeline.ΦA Rest1 anyAt; rw [scopedRest1_eq]; simp only [scM1_0, scM1_1, scM1_2, owns_whole]
  refine BI.Entails.antisymm (show (_ : sProp 𝕄) ⊢ _ from ?_) (show (_ : sProp 𝕄) ⊢ _ from ?_)
  · iintro ⟨⟨R0, R1, R2, R3, R4, R5, R6, R7, R8, R9, R10, R11, R12, R13, HS0, HS1, HS2⟩, Hg⟩; iframe
  · iintro ⟨⟨HS0, HS1, HS2, R0, R1, R2, R3, R4, R5, R6, R7, R8, R9, R10, R11, R12, R13⟩, Hg⟩; iframe

/-- Between positions the running maximum, denominator and numerator hold what the position before left (anything before the first). -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ Rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t)

set_option maxHeartbeats 8000000 in
/-- The body at `t` carries that invariant from `t` to `t + 1` and leaves each window's block as the proof data say, by cases on where
    `t` stands in its row block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 32 = 0
  · have h1 : ¬t.val % 32 = 31 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold res1_A; (try dsimp only)
    by_cases hz : t.val = 0
    · rw [PhiS1_castSucc V c t, PhiS1_zero V c _ _ hz, PhiA1_eq]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
      iframe H0 H1 H2 H3 H4 H5 HS0 HS1 HS2
      iintro ⟨H0, H1, H2, H3, H4, H5, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover1_A_0 (y := y) ..); iexact HS0
        isplitl [HS1]; · iapply owns_of_cover _ _ _ _ _ _ (fun y => scover1_A_1 (y := y) ..); iexact HS1
        iapply owns_of_cover _ _ _ _ _ _ (fun y => scover1_A_2 (y := y) ..); iexact HS2
      iexists _; iexact H5
    · rw [PhiS1_castSucc V c t, PhiS1_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
      iframe H0 H1 H2 H3 H4 H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover1_A_0 (y := y) ..); iexact HS0
        isplitl [HS1]; · iapply owns_of_cover _ _ _ _ _ _ (fun y => scover1_A_1 (y := y) ..); iexact HS1
        iapply owns_of_cover _ _ _ _ _ _ (fun y => scover1_A_2 (y := y) ..); iexact HS2
      iexists _; iexact H5
  · have hz : t.val ≠ 0 := by intro h; rw [h] at h0; exact h0 (Nat.zero_mod _)
    by_cases h1 : t.val % 32 = 31
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold res1_C; (try dsimp only)
      rw [PhiS1_castSucc V c t, PhiS1_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
      iframe H0 H1 H2 H3 H4 HS0 HS1 HS2
      isplitl [H5]; · iexists _; iexact H5
      iintro ⟨H0, H1, H2, H3, H4, ⟨%e5, H5⟩, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover1_C_0 (y := y) ..); iexact HS0
        isplitl [HS1]; · iapply owns_of_cover _ _ _ _ _ _ (fun y => scover1_C_1 (y := y) ..); iexact HS1
        iapply owns_of_cover _ _ _ _ _ _ (fun y => scover1_C_2 (y := y) ..); iexact HS2
      iapply owns_of_cover _ _ _ _ _ _ (fun y => cover1_C_5 (y := y) ..); iexact H5
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold res1_B; (try dsimp only)
      rw [PhiS1_castSucc V c t, PhiS1_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2.2 _ Set.univ _)
      iframe H0 H1 H2 H3 H4 H5 HS0 HS1 HS2
      iintro ⟨H0, H1, H2, H3, H4, H5, ⟨%es0, HS0⟩, ⟨%es1, HS1⟩, ⟨%es2, HS2⟩⟩
      iframe HR Hg Ho H0 H1 H2 H3 H4
      isplitl [HS0 HS1 HS2]
      · isplitl [HS0]; · iapply owns_of_cover _ _ _ _ _ _ (fun y => scover1_B_0 (y := y) ..); iexact HS0
        isplitl [HS1]; · iapply owns_of_cover _ _ _ _ _ _ (fun y => scover1_B_1 (y := y) ..); iexact HS1
        iapply owns_of_cover _ _ _ _ _ _ (fun y => scover1_B_2 (y := y) ..); iexact HS2
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

theorem hout1 (c : Dev nD) : (dat1 V c).Φ (Fin.last cfg1.N) ⊢ Pipeline.ΦA spec1 c :=
  Phi_out1 V c _ (by rw [Fin.val_last]; have : cfg1.N = 256 := N_1; omega)

end Region1

end Cert.KernelIdeal.Hand

end
-- ==== Proof.URun.lean ====
import proofs.«400831_j17978733101719_3_alg».proof.Proof.Gen.KernelIdeal.Regions
import proofs.«400831_j17978733101719_3_alg».proof.Proof.UEntry
import proofs.«400831_j17978733101719_3_alg».proof.Proof.U0Frame
import proofs.«400831_j17978733101719_3_alg».proof.Proof.U1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

def pdats : (p : Fin 2) → (c : Dev nD) → Dat τ (Elt F) Unit ℕ (UR sig nD τ) ℕ (Pipeline.pin (pcfgs (F := F)) Gen.adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) Gen.adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.KernelIdeal.Hand

end
-- ==== Proof.UFrameOf.lean ====
import proofs.«400831_j17978733101719_3_alg».proof.Proof.URun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_arg0 (c : Dev nD) : W3 m c (Proc.devRef .tc main_arg0) = m ((c : Thread nD τ).loc main_arg0) :=
  calc W3 m c (Proc.devRef .tc main_arg0)
    _ = W2 m c (Proc.devRef .tc main_arg0) := (W3_arr m c 1).trans (((dat1 (V2 m) c).arrAt_in 1 rfl _).trans (A_eq1 (V2 m) c 1))
    _ = W1 m c (Proc.devRef .tc main_arg0) := (W2_arr m c 0).trans (((dat0 (V1 m) c).arrAt_in 0 rfl _).trans (A_eq0 (V1 m) c 0))
    _ = m ((c : Thread nD τ).loc main_arg0) := Gen.V1_of m c main_arg0 (by decide)
theorem W3_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := (W2_arr m c 1).trans (((dat0 (V1 m) c).arrAt_in 1 rfl _).trans (A_eq0 (V1 m) c 1))
    _ = m ((c : Thread nD τ).loc main_arg1) := Gen.V1_of m c main_arg1 (by decide)
theorem W3_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = m ((c : Thread nD τ).loc main_arg2) := Gen.V1_of m c main_arg2 (by decide)
theorem W3_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)
theorem W3_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := Gen.V1_of m c main_arg4 (by decide)

theorem W3_res0 (c : Dev nD) : W3 m c (Proc.devRef .tc main_v2_0) = (dat0 (V1 m) c).arrAt 5 cfg0.N :=
  (W3_of_ne m c main_v2_0 (by decide)).trans (W2_arr m c 5)
theorem W3_res1 (c : Dev nD) : W3 m c (Proc.devRef .tc main_v3) = (dat1 (V2 m) c).arrAt 5 cfg1.N :=
  W3_arr m c 5

theorem V2_relay (c : Dev nD) : V2 m c main_v2_1 = (dat0 (V1 m) c).arrAt 6 cfg0.N := W2_arr m c 6
theorem V2_arg0 (c : Dev nD) : V2 m c main_arg0 = m ((c : Thread nD τ).loc main_arg0) :=
  ((W2_arr m c 0).trans (((dat0 (V1 m) c).arrAt_in 0 rfl _).trans (A_eq0 (V1 m) c 0))).trans (Gen.V1_of m c main_arg0 (by decide))
theorem V2_arg1 (c : Dev nD) : V2 m c main_arg1 = m ((c : Thread nD τ).loc main_arg1) :=
  ((W2_arr m c 1).trans (((dat0 (V1 m) c).arrAt_in 1 rfl _).trans (A_eq0 (V1 m) c 1))).trans (Gen.V1_of m c main_arg1 (by decide))
theorem V2_v0 (c : Dev nD) : V2 m c main_v0 = V1 m c main_v0 :=
  (W2_arr m c 3).trans (((dat0 (V1 m) c).arrAt_in 3 rfl _).trans (A_eq0 (V1 m) c 3))
theorem V2_v1 (c : Dev nD) : V2 m c main_v1 = V1 m c main_v1 :=
  (W2_arr m c 4).trans (((dat0 (V1 m) c).arrAt_in 4 rfl _).trans (A_eq0 (V1 m) c 4))

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_arg0 m c),
     (h c _ (mem_uc main_arg1 (by decide))).trans (W3_arg1 m c),
     (h c _ (mem_uc main_arg2 (by decide))).trans (W3_arg2 m c),
     (h c _ (mem_uc main_arg3 (by decide))).trans (W3_arg3 m c),
     (h c _ (mem_uc main_arg4 (by decide))).trans (W3_arg4 m c)⟩) (run_all m ρ)

end Cert.KernelIdeal.Hand

end
-- ==== Proof.RefImports.lean ====
import proofs.«400831_j17978733101719_3_alg».proof.Proof.Gen.ReferenceIdeal.Run
import proofs.«400831_j17978733101719_3_alg».proof.Proof.Gen.ReferenceIdeal.Read
-- ==== Proof.Spec.lean ====
import Idealize.ShloMosaic.PureOps.Ideal
import Idealize.ShloMosaic.Lib.ValueIdx

noncomputable section

namespace Cert.Spec

open Idealize.ShloMosaic Idealize.ShloMosaic.ValueIdx

/-- The score of a pair the adjacency does not link. -/
abbrev negBig : EReal := Ideal.ofBits .f32 0xCE6E6B28#32

/-- One where the adjacency word is positive, zero elsewhere. -/
def maskv (a : BitVec 32) : EReal := if 0 < a.toInt then 1 else 0

/-- The inner product of two rows where they are linked, `negBig` where they are not. -/
def score {D : Nat} (q : Fin D → EReal) (k : Fin D → EReal) (a : BitVec 32) : EReal :=
  (∑ d, q d * k d) * maskv a + (1 - maskv a) * negBig

/-- The sum of the values `v` weighted by the softmax of the scores `x`. -/
def attn {K : Nat} (x : Fin K → EReal) (v : Fin K → EReal) : EReal :=
  ∑ k, Ideal.div (Ideal.exp (x k - Finset.univ.sup x)) (∑ k', Ideal.exp (x k' - Finset.univ.sup x)) * v k

/-- Column `d` of the rectified linear image of a row `u`. -/
def lin {D : Nat} (u : Fin D → EReal) (W : Fin D → Fin D → EReal) (b : Fin D → EReal) (d : Fin D) : EReal :=
  max ((∑ d', u d' * W d d') + b d) 0

variable (U : (⟨2, ![16384, 128]⟩ : Shape).Idx → EReal) (I : (⟨2, ![8192, 128]⟩ : Shape).Idx → EReal)
  (A : (⟨2, ![16384, 8192]⟩ : Shape).Idx → BitVec 32) (W : (⟨2, ![128, 128]⟩ : Shape).Idx → EReal)
  (b : (⟨1, ![128]⟩ : Shape).Idx → EReal)

/-- A user row's update: its linear image plus its attention over the items it is linked to. -/
def updUser (n : Fin 16384) (d : Fin 128) : EReal :=
  lin (fun d' => U (ix2 n d')) (fun a c => W (ix2 a c)) (fun a => b (ix1 a)) d
    + attn (fun k : Fin 8192 => score (fun d' => U (ix2 n d')) (fun d' => I (ix2 k d')) (A (ix2 n k))) (fun k => I (ix2 k d))

/-- An item row's update: its linear image plus its attention over the users linked to it. -/
def updItem (k : Fin 8192) (d : Fin 128) : EReal :=
  lin (fun d' => I (ix2 k d')) (fun a c => W (ix2 a c)) (fun a => b (ix1 a)) d
    + attn (fun n : Fin 16384 => score (fun d' => I (ix2 k d')) (fun d' => U (ix2 n d')) (A (ix2 n k))) (fun n => U (ix2 n d))

end Cert.Spec

end
-- ==== Proof.RefValue.lean ====
import proofs.«400831_j17978733101719_3_alg».proof.Proof.RefImports
import proofs.«400831_j17978733101719_3_alg».proof.Proof.Spec
import Idealize.ShloMosaic.Lib.IdealHost
import Idealize.ShloMosaic.Lib.Affine
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.ValueIdx Idealize.ShloMosaic.StableHlo
open Cert.ReferenceIdeal.Read

/-- An index of a two-axis shape is fixed by its two coordinates. -/
theorem i2 {n0 n1 : ℕ} {i : (⟨2, ![n0, n1]⟩ : Shape).Idx} {a : Fin n0} {b : Fin n1}
    (h0 : (i 0).val = a.val) (h1 : (i 1).val = b.val) : i = ix2 a b :=
  (eq_ix2 i).trans (congrArg₂ ix2 (Fin.ext h0) (Fin.ext h1))

theorem i1 {n : ℕ} {i : (⟨1, ![n]⟩ : Shape).Idx} {a : Fin n} (h : (i 0).val = a.val) : i = ix1 a :=
  (eq_ix1 i).trans (congrArg ix1 (Fin.ext h))

theorem negInf_eq : Ideal.ofBits .f32 0xFF800000#32 = (⊥ : EReal) := by
  simp [Ideal.ofBits, Ideal.ieee]

/-- The signed comparison with zero, read as a float, is the adjacency weight. -/
theorem mask_eq (a : BitVec 32) :
    FloatOps.uitofp (F := Ideal) .f32 (IntOp.cmpi .sgt a 0#32) = Spec.maskv a := by
  unfold Spec.maskv
  by_cases h : 0 < a.toInt
  · have h1 : IntOp.cmpi .sgt a 0#32 = 1#1 := IntOp.cmpi_sgt.2 (by simpa using h)
    rw [h1, if_pos h]
    show (((1#1 : BitVec 1).toNat : ℝ) : EReal) = 1
    norm_num
  · have h1 : IntOp.cmpi .sgt a 0#32 = 0#1 :=
      eq_zero_of_ne_one fun e => h (by simpa using IntOp.cmpi_sgt.1 e)
    rw [h1, if_neg h]
    show (((0#1 : BitVec 1).toNat : ℝ) : EReal) = 0
    norm_num

variable (x0 : (⟨S16384x128, .f32⟩ : BufTy).Contents (Elt Ideal)) (x1 : (⟨S8192x128, .f32⟩ : BufTy).Contents (Elt Ideal))
  (x2 : (⟨S16384x8192, .i32⟩ : BufTy).Contents (Elt Ideal)) (x3 : (⟨S128x128, .f32⟩ : BufTy).Contents (Elt Ideal))
  (x4 : (⟨S128, .f32⟩ : BufTy).Contents (Elt Ideal))

theorem maskU_eq (n : Fin 16384) (k : Fin 8192) :
    val_main_v14 x2 (ix2 n k) = Spec.maskv (x2 (ix2 n k)) := by
  rw [val_main_v14_apply, val_main_v13_apply, val_main_v12_apply, val_main_c_apply]
  exact mask_eq _

theorem dotU_eq (n : Fin 16384) (k : Fin 8192) :
    val_main_v16 x0 x1 (ix2 n k) = ∑ d' : Fin 128, x0 (ix2 n d') * x1 (ix2 k d') := by
  rw [val_main_v16_apply]
  refine Finset.sum_congr rfl fun d' _ => ?_
  rw [val_main_v15_apply, show lidx_main_v16 (ix2 n k) d' = ix2 n d' from i2 rfl rfl,
    show idx_main_v15 (ridx_main_v16 (ix2 n k) d') = ix2 k d' from i2 rfl rfl]

theorem scoreU_eq (n : Fin 16384) (k : Fin 8192) :
    val_main_v22 x0 x1 x2 (ix2 n k)
      = Spec.score (fun d' => x0 (ix2 n d')) (fun d' => x1 (ix2 k d')) (x2 (ix2 n k)) := by
  rw [val_main_v22_apply, val_main_v17_apply, val_main_v21_apply, val_main_v19_apply, val_main_v18_apply,
    val_main_cst_apply, val_main_v20_apply, val_main_cst_0_apply, maskU_eq, dotU_eq]
  simp only [Ideal.addf_def, Ideal.subf_def, Ideal.mulf_def, Ideal.ofBits_def, Ideal.ofBits_one_f32]
  rfl

/-- The fold of the maximum from −∞ over a row is the row's supremum. -/
theorem rowmaxU_eq (n : Fin 16384) :
    val_main_v25 x0 x1 x2 (ix1 n)
      = Finset.univ.sup (fun k : Fin 8192 => val_main_v22 x0 x1 x2 (ix2 n k)) := by
  rw [val_main_v25_apply, val_main_v24_apply, val_main_cst_2_apply]
  unfold val_main_v23
  have h : S16384x8192.Reduces [1] S16384 := by decide
  rw [Host.reduce_eq_fold_single FloatOps.maximumf _ _ reducesTo_S16384x8192_S16384_d1 h h_S_ (ix1 n), val_main_cst_1_apply]
  simp only [Ideal.ofBits_def, negInf_eq, Ideal.maximumf_def]
  rw [max_eq_right bot_le]
  have e : ∀ k : Fin 8192, h.lift (ix1 n) k = ix2 n k := fun k => i2 rfl rfl
  show Finset.fold max ⊥ (fun k : Fin 8192 => val_main_v22 x0 x1 x2 (h.lift (ix1 n) k)) Finset.univ = _
  simp only [e]
  rfl

theorem expU_eq (n : Fin 16384) (k : Fin 8192) :
    val_main_v29 x0 x1 x2 (ix2 n k)
      = Ideal.exp (val_main_v22 x0 x1 x2 (ix2 n k)
          - Finset.univ.sup (fun k' : Fin 8192 => val_main_v22 x0 x1 x2 (ix2 n k'))) := by
  rw [val_main_v29_apply, val_main_v28_apply, val_main_v27_apply, val_main_v26_apply,
    show idx_main_v26 (idx_main_v27 (ix2 n k)) = ix1 n from i1 rfl, rowmaxU_eq]
  rfl

theorem denU_eq (n : Fin 16384) :
    val_main_v30 x0 x1 x2 (ix1 n) = ∑ k : Fin 8192, val_main_v29 x0 x1 x2 (ix2 n k) := by
  rw [val_main_v30_apply, val_main_cst_3_apply]
  simp only [Ideal.ofBits_def, Ideal.ofBits_zero_f32, zero_add]
  exact Finset.sum_congr rfl fun k _ => congrArg _ (i2 rfl rfl)

theorem wU_eq (n : Fin 16384) (k : Fin 8192) :
    val_main_v33 x0 x1 x2 (ix2 n k)
      = Ideal.div (val_main_v29 x0 x1 x2 (ix2 n k)) (∑ k' : Fin 8192, val_main_v29 x0 x1 x2 (ix2 n k')) := by
  rw [val_main_v33_apply, val_main_v32_apply, val_main_v31_apply,
    show idx_main_v31 (idx_main_v32 (ix2 n k)) = ix1 n from i1 rfl, denU_eq]
  rfl

theorem attnU_eq (n : Fin 16384) (d : Fin 128) :
    val_main_v34 x0 x1 x2 (ix2 n d)
      = Spec.attn (fun k : Fin 8192 => Spec.score (fun d' => x0 (ix2 n d')) (fun d' => x1 (ix2 k d')) (x2 (ix2 n k)))
          (fun k => x1 (ix2 k d)) := by
  rw [val_main_v34_apply]
  unfold Spec.attn
  refine Finset.sum_congr rfl fun k _ => ?_
  rw [show lidx_main_v34 (ix2 n d) k = ix2 n k from i2 rfl rfl, show ridx_main_v34 (ix2 n d) k = ix2 k d from i2 rfl rfl]
  simp only [wU_eq, expU_eq, scoreU_eq]

theorem linU_eq (n : Fin 16384) (d : Fin 128) :
    val_main_v5 x0 x3 x4 (ix2 n d)
      = Spec.lin (fun d' => x0 (ix2 n d')) (fun a c => x3 (ix2 a c)) (fun a => x4 (ix1 a)) d := by
  rw [val_main_v5_apply, val_main_v4_apply, val_main_call0_v0_apply, val_main_call0_cst_apply, val_main_v3_apply,
    val_main_v2_apply, val_main_v1_apply, show idx_main_v2 (idx_main_v3 (ix2 n d)) = ix1 d from i1 rfl,
    Finset.sum_congr rfl fun k _ => show x0 (lidx_main_v1 (ix2 n d) k) * val_main_v0 x3 (ridx_main_v1 (ix2 n d) k)
      = x0 (ix2 n k) * x3 (ix2 d k) by
        rw [val_main_v0_apply, show lidx_main_v1 (ix2 n d) k = ix2 n k from i2 rfl rfl,
          show idx_main_v0 (ridx_main_v1 (ix2 n d) k) = ix2 d k from i2 rfl rfl]]
  simp only [Ideal.ofBits_def, Ideal.ofBits_zero_f32, Ideal.addf_def, Ideal.maximumf_def]
  rfl

theorem user_eq (n : Fin 16384) (d : Fin 128) :
    val_main_v35 x0 x1 x2 x3 x4 (ix2 n d) = Spec.updUser x0 x1 x2 x3 x4 n d := by
  rw [val_main_v35_apply, linU_eq, attnU_eq]
  rfl

theorem maskI_eq (k : Fin 8192) (n : Fin 16384) :
    val_main_v38 x2 (ix2 k n) = Spec.maskv (x2 (ix2 n k)) := by
  rw [val_main_v38_apply, show idx_main_v38 (ix2 k n) = ix2 n k from i2 rfl rfl]
  exact maskU_eq x2 n k

theorem dotI_eq (k : Fin 8192) (n : Fin 16384) :
    val_main_v37 x0 x1 (ix2 k n) = ∑ d' : Fin 128, x1 (ix2 k d') * x0 (ix2 n d') := by
  rw [val_main_v37_apply]
  refine Finset.sum_congr rfl fun d' _ => ?_
  rw [val_main_v36_apply, show lidx_main_v37 (ix2 k n) d' = ix2 k d' from i2 rfl rfl,
    show idx_main_v36 (ridx_main_v37 (ix2 k n) d') = ix2 n d' from i2 rfl rfl]

theorem scoreI_eq (k : Fin 8192) (n : Fin 16384) :
    val_main_v44 x0 x1 x2 (ix2 k n)
      = Spec.score (fun d' => x1 (ix2 k d')) (fun d' => x0 (ix2 n d')) (x2 (ix2 n k)) := by
  rw [val_main_v44_apply, val_main_v39_apply, val_main_v43_apply, val_main_v41_apply, val_main_v40_apply,
    val_main_cst_4_apply, val_main_v42_apply, val_main_cst_5_apply, maskI_eq, dotI_eq]
  simp only [Ideal.addf_def, Ideal.subf_def, Ideal.mulf_def, Ideal.ofBits_def, Ideal.ofBits_one_f32]
  rfl

theorem rowmaxI_eq (k : Fin 8192) :
    val_main_v47 x0 x1 x2 (ix1 k)
      = Finset.univ.sup (fun n : Fin 16384 => val_main_v44 x0 x1 x2 (ix2 k n)) := by
  rw [val_main_v47_apply, val_main_v46_apply, val_main_cst_7_apply]
  unfold val_main_v45
  have h : S8192x16384.Reduces [1] S8192 := by decide
  rw [Host.reduce_eq_fold_single FloatOps.maximumf _ _ reducesTo_S8192x16384_S8192_d1 h h_S_ (ix1 k), val_main_cst_6_apply]
  simp only [Ideal.ofBits_def, negInf_eq, Ideal.maximumf_def]
  rw [max_eq_right bot_le]
  have e : ∀ n : Fin 16384, h.lift (ix1 k) n = ix2 k n := fun n => i2 rfl rfl
  show Finset.fold max ⊥ (fun n : Fin 16384 => val_main_v44 x0 x1 x2 (h.lift (ix1 k) n)) Finset.univ = _
  simp only [e]
  rfl

theorem expI_eq (k : Fin 8192) (n : Fin 16384) :
    val_main_v51 x0 x1 x2 (ix2 k n)
      = Ideal.exp (val_main_v44 x0 x1 x2 (ix2 k n)
          - Finset.univ.sup (fun n' : Fin 16384 => val_main_v44 x0 x1 x2 (ix2 k n'))) := by
  rw [val_main_v51_apply, val_main_v50_apply, val_main_v49_apply, val_main_v48_apply,
    show idx_main_v48 (idx_main_v49 (ix2 k n)) = ix1 k from i1 rfl, rowmaxI_eq]
  rfl

theorem denI_eq (k : Fin 8192) :
    val_main_v52 x0 x1 x2 (ix1 k) = ∑ n : Fin 16384, val_main_v51 x0 x1 x2 (ix2 k n) := by
  rw [val_main_v52_apply, val_main_cst_8_apply]
  simp only [Ideal.ofBits_def, Ideal.ofBits_zero_f32, zero_add]
  exact Finset.sum_congr rfl fun n _ => congrArg _ (i2 rfl rfl)

theorem wI_eq (k : Fin 8192) (n : Fin 16384) :
    val_main_v55 x0 x1 x2 (ix2 k n)
      = Ideal.div (val_main_v51 x0 x1 x2 (ix2 k n)) (∑ n' : Fin 16384, val_main_v51 x0 x1 x2 (ix2 k n')) := by
  rw [val_main_v55_apply, val_main_v54_apply, val_main_v53_apply,
    show idx_main_v53 (idx_main_v54 (ix2 k n)) = ix1 k from i1 rfl, denI_eq]
  rfl

theorem attnI_eq (k : Fin 8192) (d : Fin 128) :
    val_main_v56 x0 x1 x2 (ix2 k d)
      = Spec.attn (fun n : Fin 16384 => Spec.score (fun d' => x1 (ix2 k d')) (fun d' => x0 (ix2 n d')) (x2 (ix2 n k)))
          (fun n => x0 (ix2 n d)) := by
  rw [val_main_v56_apply]
  unfold Spec.attn
  refine Finset.sum_congr rfl fun n _ => ?_
  rw [show lidx_main_v56 (ix2 k d) n = ix2 k n from i2 rfl rfl, show ridx_main_v56 (ix2 k d) n = ix2 n d from i2 rfl rfl]
  simp only [wI_eq, expI_eq, scoreI_eq]

theorem linI_eq (k : Fin 8192) (d : Fin 128) :
    val_main_v11 x1 x3 x4 (ix2 k d)
      = Spec.lin (fun d' => x1 (ix2 k d')) (fun a c => x3 (ix2 a c)) (fun a => x4 (ix1 a)) d := by
  rw [val_main_v11_apply, val_main_v10_apply, val_main_call1_v0_apply, val_main_call1_cst_apply, val_main_v9_apply,
    val_main_v8_apply, val_main_v7_apply, show idx_main_v8 (idx_main_v9 (ix2 k d)) = ix1 d from i1 rfl,
    Finset.sum_congr rfl fun j _ => show x1 (lidx_main_v7 (ix2 k d) j) * val_main_v6 x3 (ridx_main_v7 (ix2 k d) j)
      = x1 (ix2 k j) * x3 (ix2 d j) by
        rw [val_main_v6_apply, show lidx_main_v7 (ix2 k d) j = ix2 k j from i2 rfl rfl,
          show idx_main_v6 (ridx_main_v7 (ix2 k d) j) = ix2 d j from i2 rfl rfl]]
  simp only [Ideal.ofBits_def, Ideal.ofBits_zero_f32, Ideal.addf_def, Ideal.maximumf_def]
  rfl

theorem item_eq (k : Fin 8192) (d : Fin 128) :
    val_main_v57 x0 x1 x2 x3 x4 (ix2 k d) = Spec.updItem x0 x1 x2 x3 x4 k d := by
  rw [val_main_v57_apply, linI_eq, attnI_eq]
  rfl

end Cert.ReferenceIdeal.RefValue

end
-- ==== Proof.PreReal.lean ====
import proofs.«400831_j17978733101719_3_alg».proof.Proof.UEntry
import proofs.«400831_j17978733101719_3_alg».proof.Defs
import proofs.«400831_j17978733101719_3_alg».proof.Proof.Gen.Pre_finite_inputs
import Idealize.ShloMosaic.Lib.ReduceAll
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.Lib.Affine

noncomputable section

namespace Cert.KernelIdeal.Hand

open Cert.KernelIdeal Cert.KernelIdeal.Gen
open Idealize.ShloMosaic Idealize.ShloMosaic.TcCoe Idealize.ShloMosaic.Tactic

instance subsingleton_S_ : Subsingleton Cert.Pre_finite_inputs.S_.Idx := ⟨fun a b => funext fun d => d.elim0⟩

/-- An extended real with `max y (-y) < ⊤` is neither infinity, so it is real. -/
theorem real_of_abs_lt_top (y : EReal) (hlt : max y (-y) < ⊤) : ∃ r : ℝ, y = (r : EReal) := by
  induction y using EReal.rec with
  | bot => simp at hlt
  | coe r => exact ⟨r, rfl⟩
  | top => simp at hlt

/-- Where the comparison `|x| < +∞` of an array holds, the entry is real. -/
theorem real_of_finite {s : Shape} (x : FVec Ideal s .f32) (hb : Cert.Pre_finite_inputs.S_.BroadcastsInDim s (![] : Fin 0 → Fin s.rank))
    (i : s.Idx)
    (e : cmpf .olt (Host.absf x) (broadcastInDim s ![] hb (constant Cert.Pre_finite_inputs.S_ .f32 0x7F800000#32)) i = 1#1) :
    ∃ r : ℝ, x i = (r : EReal) := by
  change Ideal.cmp .olt (max (x i) (-(x i))) (Ideal.ofBits .f32 0x7F800000#32) = 1#1 at e
  rw [show Ideal.ofBits .f32 0x7F800000#32 = (⊤ : EReal) by simp [Ideal.ofBits, Ideal.ieee]] at e
  refine real_of_abs_lt_top _ ?_
  by_contra hn
  simp [Ideal.cmp, hn] at e

/-- The precondition is a conjunction of "every entry is finite", one conjunct an array. -/
theorem pre_real (m : (ℓ : Loc Cert.KernelIdeal.nD Cert.KernelIdeal.τ Cert.KernelIdeal.sig) → Buf (Elt Ideal) ℓ)
    (h : @Cert.Pre_KernelIdeal Cert.Pre_finite_inputs.Gen.facts m) (c : Dev nD) :
    (∀ i, ∃ r : ℝ, m ((c.tc : Thread nD τ).loc main_arg0) i = (r : EReal))
      ∧ (∀ i, ∃ r : ℝ, m ((c.tc : Thread nD τ).loc main_arg1) i = (r : EReal)) := by
  have h0 := congrFun (h c) ValueIdx.ix0
  dsimp only [Cert.Pre_finite_inputs.fn, Cert.Pre_finite_inputs.fn_part1] at h0
  obtain ⟨h123, _⟩ := IntOp.andi_eq_one.1 h0
  obtain ⟨h12, _⟩ := IntOp.andi_eq_one.1 h123
  obtain ⟨h1, h2⟩ := IntOp.andi_eq_one.1 h12
  exact ⟨fun i => real_of_finite _ _ i (Host.reduce_andi_all _ _ _ _ _ h1 i),
    fun i => real_of_finite _ _ i (Host.reduce_andi_all _ _ _ _ _ h2 i)⟩

variable {F : FTy → Type} [FloatOps F] (m : (ℓ : Loc nD τ sig) → Buf (Elt F) ℓ) (c : Dev nD)

theorem V1_arg0 : V1 m c main_arg0 = m ((c.tc : Thread nD τ).loc main_arg0) := by
  show StableHlo.after hostOps0 (fun b => m (c, b)) (Proc.devRef .tc main_arg0) = _
  after_results

theorem V1_arg1 : V1 m c main_arg1 = m ((c.tc : Thread nD τ).loc main_arg1) := by
  show StableHlo.after hostOps0 (fun b => m (c, b)) (Proc.devRef .tc main_arg1) = _
  after_results

theorem V1_arg2 : V1 m c main_arg2 = m ((c.tc : Thread nD τ).loc main_arg2) := by
  show StableHlo.after hostOps0 (fun b => m (c, b)) (Proc.devRef .tc main_arg2) = _
  after_results

/-- Region 0 reads the weight matrix transposed. -/
theorem V1_v0_apply (a b : Fin 128) :
    V1 m c main_v0 (ValueIdx.ix2 a b) = m ((c.tc : Thread nD τ).loc main_arg3) (ValueIdx.ix2 b a) := by
  have e : (V1 m c main_v0 : (⟨S128x128, .f32⟩ : BufTy).Contents (Elt F))
      = transpose S128x128 [1, 0] (m ((c.tc : Thread nD τ).loc main_arg3) : (⟨S128x128, .f32⟩ : BufTy).Contents (Elt F))
          transposes_S128x128_S128x128_1_0 := by
    show StableHlo.after hostOps0 (fun b => m (c, b)) (Proc.devRef .tc main_v0) = _
    after_results
  rw [e]
  exact ValueIdx.transpose_ix2_apply _ _ a b

/-- Region 0 reads the bias as a one-row matrix. -/
theorem V1_v1_apply (a : Fin 128) :
    V1 m c main_v1 (ValueIdx.ix2 (0 : Fin 1) a) = m ((c.tc : Thread nD τ).loc main_arg4) (ValueIdx.ix1 a) := by
  have e : (V1 m c main_v1 : (⟨S1x128, .f32⟩ : BufTy).Contents (Elt F))
      = shapeCast S1x128 (m ((c.tc : Thread nD τ).loc main_arg4) : (⟨S128, .f32⟩ : BufTy).Contents (Elt F))
          shapeCasts_S128_S1x128 := by
    show StableHlo.after hostOps0 (fun b => m (c, b)) (Proc.devRef .tc main_v1) = _
    after_results
    rfl
  rw [e]
  exact ValueIdx.shapeCast_a_1a_apply _ _ 0 a

end Cert.KernelIdeal.Hand

end
-- ==== Proof.Ideal.R0StepDefs.lean ====
import proofs.«400831_j17978733101719_3_alg».proof.Proof.Gen.KernelIdeal.Skeleton
import proofs.«400831_j17978733101719_3_alg».proof.Proof.Spec
import Idealize.ShloMosaic.Lib.ValueIdx

noncomputable section

namespace Cert.KernelIdeal.Val0

open Cert.KernelIdeal Cert.KernelIdeal.Gen Idealize.ShloMosaic Idealize.ShloMosaic.ValueIdx

abbrev St0 := Vec Ideal S512x1 .f32 × Vec Ideal S512x1 .f32 × Vec Ideal S512x128 .f32

/-- One grid point's update of the running maximum, denominator and numerator. -/
def stepU (x0 : Vec Ideal S512x128 .f32) (v7 : Vec Ideal S1024x128 .f32) (x2 : Vec Ideal S512x1024 .i32) (s : St0) : St0 :=
  (k0_pay3 (k0_pay12 x0 v7 x2 s.1), k0_pay1 (k0_pay15 x0 v7 x2 s.1 s.1 s.2.1) (k0_pay16 x0 v7 x2 s.1), k0_pay2 (k0_pay9 v7) (k0_pay13 x0 v7 x2 s.1 s.1) (k0_pay14 x0 v7 x2 s.1) s.2.2)

/-- The state a row starts from. -/
def initU : St0 := (k0_pay6 (F := Ideal), k0_pay7 (F := Ideal), k0_pay8 (F := Ideal))

/-- The masked score of user row `r` against item row `k` of the block. -/
def scoreU (x0 : Vec Ideal S512x128 .f32) (v7 : Vec Ideal S1024x128 .f32) (x2 : Vec Ideal S512x1024 .i32) (r : Fin 512) (k : Fin 1024) : EReal :=
  Cert.Spec.score (fun d' => x0 (ix2 r d')) (fun d' => v7 (ix2 k d')) (x2 (ix2 r k))

end Cert.KernelIdeal.Val0

end
-- ==== Proof.V0Pieces.lean ====
import proofs.«400831_j17978733101719_3_alg».proof.Proof.U0Res
import proofs.«400831_j17978733101719_3_alg».proof.Proof.Ideal.R0StepDefs
import Idealize.ShloMosaic.Lib.Pipeline.Value

noncomputable section

namespace Cert.KernelIdeal.Hand

open Cert.KernelIdeal Cert.KernelIdeal.Gen
open Idealize.ShloMosaic Idealize.ShloMosaic.Tactic
open Cert.KernelIdeal.Val0

theorem hz2 : (![0, 0] : Fin 2 → Nat) = fun _ => 0 := funext fun a => by fin_cases a <;> rfl

-- A write made last that covers every index determines every later read.
theorem read_writes_cons_whole {Val : EltTy → Type} [∀ e, Nonempty (Val e)] {sig : RefSig} {κ : Kind} {sp : Space} {S : Shape}
    {e : EltTy} (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w :=
  (View.read_writes_eq_canon v f _ fun y => ⟨_, List.mem_cons_self .., View.mem_set_unit_zero h inb y⟩).trans
    (View.canon_cons_unit_zero h inb w L)

-- A block of whole rows starting at row o, read at (k, d), is the table at (o + k, d).
theorem ld_rows_apply {Val : EltTy → Type} {M m n : Nat} {e : EltTy} (X : (⟨2, ![M, n]⟩ : Shape).Idx → Val e) {off : Fin 2 → Nat}
    (inb : ∀ a, off a + (![m, n] : Fin 2 → Nat) a ≤ (![M, n] : Fin 2 → Nat) a) {o : Nat} (h0 : off 0 = o) (h1 : off 1 = 0)
    (k : Fin m) (d : Fin n) (hk : o + k.val < M) :
    View.ld X (Rect.unit (s := ⟨2, ![M, n]⟩) off ![m, n] inb) (ValueIdx.ix2 k d) = X (ValueIdx.ix2 ⟨o + k.val, hk⟩ d) := by
  refine congrArg X (funext fun a => Fin.ext ?_)
  match a with
  | ⟨0, _⟩ => show off 0 + 1 * k.val = o + k.val; omega
  | ⟨1, _⟩ => show off 1 + 1 * d.val = d.val; omega

def itemBlk (i : grid0.Coords) (x1 : Vec Ideal S8192x128 .f32) : Vec Ideal S1024x128 .f32 :=
  View.ld x1 (Rect.unit (s := S8192x128) (k0_off1 i) S1024x128.size (k0_off1_inb i))

theorem coord0_1 : ∀ t : Fin cfg0.N, ((grid0.coords t) 1).val = t.val % 8 :=
  (by decide +kernel : ∀ t : Fin grid0.N, ((grid0.coords t) 1).val = t.val % 8)

theorem itemBlk_apply (t : Fin cfg0.N) (x1 : Vec Ideal S8192x128 .f32) (k : Fin 1024) (d : Fin 128) :
    itemBlk (grid0.coords t) x1 (ValueIdx.ix2 k d)
      = x1 (ValueIdx.ix2 ⟨1024 * (t.val % 8) + k.val, by have := t.isLt; have : cfg0.N = 256 := N_0; omega⟩ d) :=
  ld_rows_apply x1 _ (by rw [k0_off1_eq, coord0_1 t]; rfl) (by rw [k0_off1_eq]; rfl) k d _

variable (c : Dev nD) (i : grid0.Coords) (arg2 : Memref sig .tc .vmem S512x128 .f32) (harg2 : arg2.IsWhole) (arg3 : Memref sig .tc .vmem S8192x128 .f32) (harg3 : arg3.IsWhole) (arg4 : Memref sig .tc .vmem S512x1024 .i32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S1024x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x128 .f32) (harg11 : arg11.IsWhole)

section A
variable (hc0 : cond0_0 i) (hc1 : ¬cond0_1 i) (x0 : Vec Ideal S512x128 .f32) (x1 : Vec Ideal S8192x128 .f32) (x2 : Vec Ideal S512x1024 .i32) (x3 : Vec Ideal S128x128 .f32) (x4 : Vec Ideal S1x128 .f32)

theorem res0_A_eq :
    (res0_A c i arg2 harg2 arg3 harg3 arg4 harg4 arg5 harg5 arg6 harg6 arg7 harg7 arg8 harg8 arg9 harg9 arg10 harg10 arg11 harg11 hc0 hc1 x0 x1 x2 x3 x4).2.1 = k0_pay4 (k0_pay10 x2)
      ∧ ((res0_A c i arg2 harg2 arg3 harg3 arg4 harg4 arg5 harg5 arg6 harg6 arg7 harg7 arg8 harg8 arg9 harg9 arg10 harg10 arg11 harg11 hc0 hc1 x0 x1 x2 x3 x4).2.2.1, (res0_A c i arg2 harg2 arg3 harg3 arg4 harg4 arg5 harg5 arg6 harg6 arg7 harg7 arg8 harg8 arg9 harg9 arg10 harg10 arg11 harg11 hc0 hc1 x0 x1 x2 x3 x4).2.2.2.1, (res0_A c i arg2 harg2 arg3 harg3 arg4 harg4 arg5 harg5 arg6 harg6 arg7 harg7 arg8 harg8 arg9 harg9 arg10 harg10 arg11 harg11 hc0 hc1 x0 x1 x2 x3 x4).2.2.2.2) = stepU x0 (itemBlk i x1) x2 initU := by
  unfold res0_A kernelRun0_A
  sl_unfold_words
  simp only [read_writes_cons_whole (S := ⟨2, _⟩) _ _ hz2, View.readAt_eq_ld, harg2.read_unread, harg3.read_unread, harg4.read_unread, View.ld_unit_zero (S := ⟨2, _⟩) hz2, View.readCov_unit_zero (S := ⟨2, _⟩) _ hz2, true_and]
  rfl

end A

section B
variable (hc0 : ¬cond0_0 i) (hc1 : ¬cond0_1 i) (x0 : Vec Ideal S512x128 .f32) (x1 : Vec Ideal S8192x128 .f32) (x2 : Vec Ideal S512x1024 .i32) (x3 : Vec Ideal S128x128 .f32) (x4 : Vec Ideal S1x128 .f32) (xs0 : Vec Ideal S512x1 .f32) (xs1 : Vec Ideal S512x1 .f32) (xs2 : Vec Ideal S512x128 .f32)

theorem res0_B_eq :
    (res0_B c i arg2 harg2 arg3 harg3 arg4 harg4 arg5 harg5 arg6 harg6 arg7 harg7 arg8 harg8 arg9 harg9 arg10 harg10 arg11 harg11 hc0 hc1 x0 x1 x2 x3 x4 xs0 xs1 xs2).2.1 = k0_pay4 (k0_pay10 x2)
      ∧ ((res0_B c i arg2 harg2 arg3 harg3 arg4 harg4 arg5 harg5 arg6 harg6 arg7 harg7 arg8 harg8 arg9 harg9 arg10 harg10 arg11 harg11 hc0 hc1 x0 x1 x2 x3 x4 xs0 xs1 xs2).2.2.1, (res0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.1, (res0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.2) = stepU x0 (itemBlk i x1) x2 (xs0, xs1, xs2) := by
  unfold res0_B kernelRun0_B
  sl_unfold_words
  simp only [read_writes_cons_whole (S := ⟨2, _⟩) _ _ hz2, View.readAt_eq_ld, harg2.read_unread, harg3.read_unread, harg4.read_unread, harg9.read_unread, harg10.read_unread, harg11.read_unread, View.ld_unit_zero (S := ⟨2, _⟩) hz2, true_and]
  rfl

end B

section C
variable (hc0 : ¬cond0_0 i) (hc1 : cond0_1 i) (x0 : Vec Ideal S512x128 .f32) (x1 : Vec Ideal S8192x128 .f32) (x2 : Vec Ideal S512x1024 .i32) (x3 : Vec Ideal S128x128 .f32) (x4 : Vec Ideal S1x128 .f32) (xs0 : Vec Ideal S512x1 .f32) (xs1 : Vec Ideal S512x1 .f32) (xs2 : Vec Ideal S512x128 .f32)

theorem res0_C_eq :
    (res0_C c i arg2 harg2 arg3 harg3 arg4 harg4 arg5 harg5 arg6 harg6 arg7 harg7 arg8 harg8 arg9 harg9 arg10 harg10 arg11 harg11 hc0 hc1 x0 x1 x2 x3 x4 xs0 xs1 xs2).1 = k0_pay5 x0 (stepU x0 (itemBlk i x1) x2 (xs0, xs1, xs2)).2.2 (stepU x0 (itemBlk i x1) x2 (xs0, xs1, xs2)).2.1 x3 x4
      ∧ (res0_C c i arg2 harg2 arg3 harg3 arg4 harg4 arg5 harg5 arg6 harg6 arg7 harg7 arg8 harg8 arg9 harg9 arg10 harg10 arg11 harg11 hc0 hc1 x0 x1 x2 x3 x4 xs0 xs1 xs2).2.1 = k0_pay4 (k0_pay10 x2)
      ∧ ((res0_C c i arg2 harg2 arg3 harg3 arg4 harg4 arg5 harg5 arg6 harg6 arg7 harg7 arg8 harg8 arg9 harg9 arg10 harg10 arg11 harg11 hc0 hc1 x0 x1 x2 x3 x4 xs0 xs1 xs2).2.2.1, (res0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.1, (res0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.2) = stepU x0 (itemBlk i x1) x2 (xs0, xs1, xs2) := by
  unfold res0_C kernelRun0_C
  sl_unfold_words
  simp only [read_writes_cons_whole (S := ⟨2, _⟩) _ _ hz2, View.readAt_eq_ld, harg2.read_unread, harg3.read_unread, harg4.read_unread, harg5.read_unread, harg6.read_unread, harg9.read_unread, harg10.read_unread, harg11.read_unread, View.ld_unit_zero (S := ⟨2, _⟩) hz2, View.readCov_unit_zero (S := ⟨2, _⟩) _ hz2, true_and]
  exact ⟨rfl, rfl⟩

end C

end Cert.KernelIdeal.Hand

end
-- ==== Proof.V0Geom.lean ====
import proofs.«400831_j17978733101719_3_alg».proof.Proof.U0Frame
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx

variable {F : FTy → Type} [FloatOps F]

theorem blockIdx0 : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = t.val % 8
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 8 ∧ win0_5.index t (1 : Fin 2) = 0
    ∧ win0_6.index t (0 : Fin 2) = t.val % 8 ∧ win0_6.index t (1 : Fin 2) = t.val / 8 :=
  (by decide +kernel : ∀ t : Fin grid0.N, _)

/-- An index of a two-axis shape is fixed by its two coordinates. -/
theorem ix2_of_val {n0 n1 : ℕ} {i : (⟨2, ![n0, n1]⟩ : Shape).Idx} {a : Fin n0} {b : Fin n1}
    (h0 : (i 0).val = a.val) (h1 : (i 1).val = b.val) : i = ix2 a b :=
  (eq_ix2 i).trans (congrArg₂ ix2 (Fin.ext h0) (Fin.ext h1))

/-- The user row at row `r` of the blocks of point `t`. -/
abbrev urow0 (t : Fin cfg0.N) (r : Fin 512) : Fin 16384 :=
  ⟨512 * (t.val / 8) + r.val, by have : t.val < 256 := lt_of_lt_of_eq t.isLt N_0; omega⟩

/-- The item at position `k` of the blocks of point `t`. -/
abbrev icol0 (t : Fin cfg0.N) (k : Fin 1024) : Fin 8192 := ⟨1024 * (t.val % 8) + k.val, by omega⟩

section Region0
variable (V : (c : Dev nD) → (b : Ref sig .tc) → Buf (Elt F) ((c : Thread nD τ).loc b)) (c : Dev nD) (t : Fin cfg0.N)

theorem iblk0_0_apply (r : Fin 512) (d : Fin 128) : iblk0 V c 0 t (ix2 r d) = V c main_arg0 (ix2 (urow0 t r) d) := by
  obtain ⟨e0, e1, -⟩ := blockIdx0 t
  show V c main_arg0 (((cfg0.win 0).blk t).view.emb (ix2 r d)) = _
  refine congrArg _ (ix2_of_val ?_ ?_)
  · show win0_0.index t (0 : Fin 2) * 512 + 1 * r.val = 512 * (t.val / 8) + r.val; omega
  · show win0_0.index t (1 : Fin 2) * 128 + 1 * d.val = d.val; omega

theorem iblk0_1_apply (k : Fin 8192) (d : Fin 128) : iblk0 V c 1 t (ix2 k d) = V c main_arg1 (ix2 k d) := by
  obtain ⟨-, -, e0, e1, -⟩ := blockIdx0 t
  show V c main_arg1 (((cfg0.win 1).blk t).view.emb (ix2 k d)) = _
  refine congrArg _ (ix2_of_val ?_ ?_)
  · show win0_1.index t (0 : Fin 2) * 8192 + 1 * k.val = k.val; omega
  · show win0_1.index t (1 : Fin 2) * 128 + 1 * d.val = d.val; omega

theorem iblk0_2_apply (r : Fin 512) (k : Fin 1024) :
    iblk0 V c 2 t (ix2 r k) = V c main_arg2 (ix2 (urow0 t r) (icol0 t k)) := by
  obtain ⟨-, -, -, -, e0, e1, -⟩ := blockIdx0 t
  show V c main_arg2 (((cfg0.win 2).blk t).view.emb (ix2 r k)) = _
  refine congrArg _ (ix2_of_val ?_ ?_)
  · show win0_2.index t (0 : Fin 2) * 512 + 1 * r.val = 512 * (t.val / 8) + r.val; omega
  · show win0_2.index t (1 : Fin 2) * 1024 + 1 * k.val = 1024 * (t.val % 8) + k.val; omega

theorem iblk0_3_apply (a b : Fin 128) : iblk0 V c 3 t (ix2 a b) = V c main_v0 (ix2 a b) := by
  obtain ⟨-, -, -, -, -, -, e0, e1, -⟩ := blockIdx0 t
  show V c main_v0 (((cfg0.win 3).blk t).view.emb (ix2 a b)) = _
  refine congrArg _ (ix2_of_val ?_ ?_)
  · show win0_3.index t (0 : Fin 2) * 128 + 1 * a.val = a.val; omega
  · show win0_3.index t (1 : Fin 2) * 128 + 1 * b.val = b.val; omega

theorem iblk0_4_apply (a : Fin 128) : iblk0 V c 4 t (ix2 (0 : Fin 1) a) = V c main_v1 (ix2 (0 : Fin 1) a) := by
  obtain ⟨-, -, -, -, -, -, -, -, e0, e1, -⟩ := blockIdx0 t
  show V c main_v1 (((cfg0.win 4).blk t).view.emb (ix2 (0 : Fin 1) a)) = _
  refine congrArg _ (ix2_of_val ?_ ?_)
  · show win0_4.index t (0 : Fin 2) * 1 + 1 * (0 : Fin 1).val = (0 : Fin 1).val; omega
  · show win0_4.index t (1 : Fin 2) * 128 + 1 * a.val = a.val; omega

theorem emb0_5 (r : Fin 512) (d : Fin 128) : ((cfg0.win 5).blk t).view.emb (ix2 r d) = ix2 (urow0 t r) d := by
  obtain ⟨-, -, -, -, -, -, -, -, -, -, e0, e1, -⟩ := blockIdx0 t
  refine ix2_of_val ?_ ?_
  · show win0_5.index t (0 : Fin 2) * 512 + 1 * r.val = 512 * (t.val / 8) + r.val; omega
  · show win0_5.index t (1 : Fin 2) * 128 + 1 * d.val = d.val; omega

theorem emb0_6 (k : Fin 1024) (r : Fin 512) : ((cfg0.win 6).blk t).view.emb (ix2 k r) = ix2 (icol0 t k) (urow0 t r) := by
  obtain ⟨-, -, -, -, -, -, -, -, -, -, -, -, e0, e1⟩ := blockIdx0 t
  refine ix2_of_val ?_ ?_
  · show win0_6.index t (0 : Fin 2) * 1024 + 1 * k.val = 1024 * (t.val % 8) + k.val; omega
  · show win0_6.index t (1 : Fin 2) * 512 + 1 * r.val = 512 * (t.val / 8) + r.val; omega

omit t in
/-- The finishing points' blocks cover the updated-user array, so it ends as what they leave. -/
theorem arrAt0_5_eq (G : (⟨2, ![16384, 128]⟩ : Shape).Idx → Elt F .f32)
    (h : ∀ t : Fin cfg0.N, t.val % 8 = 7 → ∀ (r : Fin 512) (d : Fin 128),
      (outsAt0 V c t.val t.isLt).1 (ix2 r d) = G (ix2 (urow0 t r) d)) :
    (dat0 V c).arrAt 5 cfg0.N = G := by
  refine (dat0 V c).arrAt_eq_of_cover 5 G (fun t hf => ?_) fun i => ?_
  · show (cfg0.win 5).cut (grid0.coords t) ((dat0 V c).after 5 t) = _
    rw [after0_5]
    funext y
    obtain ⟨r, d, rfl⟩ : ∃ (r : Fin 512) (d : Fin 128), y = ix2 r d := ⟨y 0, y 1, eq_ix2 y⟩
    exact (h t ((flush0_5 t).mp hf) r d).trans (congrArg G (emb0_5 t r d).symm)
  · have hi : (i 0).val < 16384 := (i 0).isLt
    have hN : cfg0.N = 256 := N_0
    obtain ⟨t, ht⟩ : ∃ t : Fin cfg0.N, t.val = 8 * ((i 0).val / 512) + 7 := ⟨⟨_, by omega⟩, rfl⟩
    refine ⟨t, (flush0_5 t).mpr (by omega), ?_⟩
    rw [show i = _ from (ix2_of_val (a := urow0 t ⟨(i 0).val % 512, by omega⟩) (b := i 1)
      (by show (i 0).val = 512 * (t.val / 8) + (i 0).val % 512; omega) rfl).trans (emb0_5 t _ _).symm]
    exact View.emb_mem_set _ _

omit t in
/-- Every point's block of the mask-relay array is written, and the blocks cover it. -/
theorem arrAt0_6_eq (G : (⟨2, ![8192, 16384]⟩ : Shape).Idx → Elt F .bf16)
    (h : ∀ (t : Fin cfg0.N) (k : Fin 1024) (r : Fin 512),
      (outsAt0 V c t.val t.isLt).2.1 (ix2 k r) = G (ix2 (icol0 t k) (urow0 t r))) :
    (dat0 V c).arrAt 6 cfg0.N = G := by
  refine (dat0 V c).arrAt_eq_of_cover 6 G (fun t hf => ?_) fun i => ?_
  · show (cfg0.win 6).cut (grid0.coords t) ((dat0 V c).after 6 t) = _
    rw [after0_6]
    funext y
    obtain ⟨k, r, rfl⟩ : ∃ (k : Fin 1024) (r : Fin 512), y = ix2 k r := ⟨y 0, y 1, eq_ix2 y⟩
    exact (h t k r).trans (congrArg G (emb0_6 t k r).symm)
  · have hi0 : (i 0).val < 8192 := (i 0).isLt
    have hi1 : (i 1).val < 16384 := (i 1).isLt
    have hN : cfg0.N = 256 := N_0
    obtain ⟨t, ht⟩ : ∃ t : Fin cfg0.N, t.val = 8 * ((i 1).val / 512) + (i 0).val / 1024 := ⟨⟨_, by omega⟩, rfl⟩
    refine ⟨t, flush0_6 t, ?_⟩
    rw [show i = _ from (ix2_of_val (a := icol0 t ⟨(i 0).val % 1024, by omega⟩) (b := urow0 t ⟨(i 1).val % 512, by omega⟩)
      (by show (i 0).val = 1024 * (t.val % 8) + (i 0).val % 1024; omega)
      (by show (i 1).val = 512 * (t.val / 8) + (i 1).val % 512; omega)).trans (emb0_6 t _ _).symm]
    exact View.emb_mem_set _ _

end Region0

end Cert.KernelIdeal.Hand

end
-- ==== Proof.LibERealBatchNorm.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

namespace Cert.ERealBN

def IsReal (x : EReal) : Prop := ∃ r : ℝ, x = (r : EReal)

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {ι : Type*} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  choose! g hg using h
  exact ⟨∑ i ∈ s, g i, (Finset.sum_congr rfl hg).trans (coe_sum s g)⟩

end Cert.ERealBN
-- ==== Proof.LibOnlineSoftmax.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«400831_j17978733101719_3_alg».proof.Proof.Spec
import proofs.«400831_j17978733101719_3_alg».proof.Proof.LibERealBatchNorm
import Mathlib.Data.EReal.Basic
import Mathlib.Data.EReal.Operations
import Mathlib.Data.EReal.Inv
import Mathlib.Data.Finset.Lattice.Fold
import Mathlib.Algebra.BigOperators.Group.Finset.Basic
import Mathlib.Algebra.BigOperators.Ring.Finset
import Mathlib.Algebra.BigOperators.Fin
import Mathlib.Algebra.Order.BigOperators.Ring.Finset
import Mathlib.Analysis.SpecialFunctions.Exp
import Mathlib.Tactic.Ring

noncomputable section

namespace Cert.OnlineSoftmax

open Idealize.ShloMosaic

/-- One block raises the running maximum, rescales both running sums by the exponential of the drop, and adds its own terms. -/
def step {B : Nat} (x : Fin B → EReal) (v : Fin B → EReal) (s : EReal × EReal × EReal) : EReal × EReal × EReal :=
  (max s.1 (Finset.univ.sup x),
   Ideal.exp (s.1 - max s.1 (Finset.univ.sup x)) * s.2.1 + ∑ k, Ideal.exp (x k - max s.1 (Finset.univ.sup x)),
   Ideal.exp (s.1 - max s.1 (Finset.univ.sup x)) * s.2.2 + ∑ k, Ideal.exp (x k - max s.1 (Finset.univ.sup x)) * v k)

/-- The state after the first `n` blocks, from the bottom element and two zeros. -/
def run {B : Nat} (x : ℕ → Fin B → EReal) (v : ℕ → Fin B → EReal) : ℕ → EReal × EReal × EReal
  | 0 => (⊥, 0, 0)
  | n + 1 => step (x n) (v n) (run x v n)

theorem coe_max (a b : ℝ) : max (a : EReal) (b : EReal) = ((max a b : ℝ) : EReal) :=
  (EReal.coe_strictMono.monotone.map_max).symm

theorem sup_coe {B : Nat} (hB : 0 < B) (xr : Fin B → ℝ) :
    ∃ r : ℝ, Finset.univ.sup (fun k => ((xr k : ℝ) : EReal)) = (r : EReal) := by
  haveI : Nonempty (Fin B) := ⟨⟨0, hB⟩⟩
  obtain ⟨k, -, hk⟩ := Finset.exists_mem_eq_sup Finset.univ Finset.univ_nonempty (fun k => ((xr k : ℝ) : EReal))
  exact ⟨xr k, hk⟩

theorem div_coe_coe (a : ℝ) {z : ℝ} (hz : z ≠ 0) : Ideal.div (a : EReal) (z : EReal) = ((a / z : ℝ) : EReal) := by
  rw [Ideal.div_coe hz, ← EReal.coe_mul, one_div, div_eq_mul_inv]

theorem step_bot {B : Nat} (hB : 0 < B) (xr vr : Fin B → ℝ) :
    ∃ m' : ℝ, step (fun k => ((xr k : ℝ) : EReal)) (fun k => ((vr k : ℝ) : EReal)) (⊥, 0, 0)
      = ((m' : EReal), ((∑ k, Real.exp (xr k - m') : ℝ) : EReal), ((∑ k, Real.exp (xr k - m') * vr k : ℝ) : EReal)) := by
  obtain ⟨r, hr⟩ := sup_coe hB xr
  refine ⟨r, ?_⟩
  simp only [step, hr, max_bot_left, EReal.bot_sub, Ideal.exp_bot, zero_mul, zero_add, ← EReal.coe_sub, Ideal.exp_coe,
    ← EReal.coe_mul, Cert.ERealBN.coe_sum]

theorem step_coe {B : Nat} (hB : 0 < B) (xr vr : Fin B → ℝ) (m Z N : ℝ) :
    ∃ m' : ℝ, step (fun k => ((xr k : ℝ) : EReal)) (fun k => ((vr k : ℝ) : EReal)) ((m : EReal), (Z : EReal), (N : EReal))
      = ((m' : EReal), ((Real.exp (m - m') * Z + ∑ k, Real.exp (xr k - m') : ℝ) : EReal),
         ((Real.exp (m - m') * N + ∑ k, Real.exp (xr k - m') * vr k : ℝ) : EReal)) := by
  obtain ⟨r, hr⟩ := sup_coe hB xr
  refine ⟨max m r, ?_⟩
  simp only [step, hr, coe_max, ← EReal.coe_sub, Ideal.exp_coe, ← EReal.coe_mul, Cert.ERealBN.coe_sum, ← EReal.coe_add]

/-- Moving a weighted exponential sum from shift `m` to shift `m'` multiplies it by `exp (m - m')`. -/
theorem rescale_sum (f g : ℕ → ℝ) (m m' : ℝ) (a b : ℕ) :
    Real.exp (m - m') * ∑ q ∈ Finset.range a, Real.exp (f q - m) * g q
        + ∑ k : Fin b, Real.exp (f (a + k.val) - m') * g (a + k.val)
      = ∑ q ∈ Finset.range (a + b), Real.exp (f q - m') * g q := by
  rw [Finset.sum_range_add, Finset.mul_sum, Finset.sum_range (fun k => Real.exp (f (a + k) - m') * g (a + k))]
  congr 1
  refine Finset.sum_congr rfl (fun q _ => ?_)
  rw [← mul_assoc, ← Real.exp_add]
  congr 2
  ring

theorem rescale_sum_one (f : ℕ → ℝ) (m m' : ℝ) (a b : ℕ) :
    Real.exp (m - m') * ∑ q ∈ Finset.range a, Real.exp (f q - m) + ∑ k : Fin b, Real.exp (f (a + k.val) - m')
      = ∑ q ∈ Finset.range (a + b), Real.exp (f q - m') := by
  simpa using rescale_sum f (fun _ => 1) m m' a b

/-- The quotient of the weighted by the plain exponential sum does not depend on the shift. -/
theorem softmax_shift {ι : Type*} (s : Finset ι) (a v : ι → ℝ) (m M : ℝ) :
    (∑ q ∈ s, Real.exp (a q - m) * v q) / (∑ q ∈ s, Real.exp (a q - m))
      = ∑ q ∈ s, Real.exp (a q - M) / (∑ q' ∈ s, Real.exp (a q' - M)) * v q := by
  have h : ∀ q, Real.exp (a q - m) = Real.exp (M - m) * Real.exp (a q - M) := fun q => by
    rw [← Real.exp_add]; congr 1; ring
  simp_rw [h, mul_assoc, ← Finset.mul_sum]
  rw [mul_div_mul_left _ _ (Real.exp_pos _).ne', Finset.sum_div]
  refine Finset.sum_congr rfl (fun q _ => ?_)
  ring

/-- After `n + 1` blocks of real data the state is a real shift with the two exponential sums over all indices seen. -/
theorem run_coe {B : Nat} (hB : 0 < B) (f g : ℕ → ℝ) (x v : ℕ → Fin B → EReal) (nb : ℕ)
    (hx : ∀ j, j < nb → ∀ k : Fin B, x j k = ((f (j * B + k.val) : ℝ) : EReal))
    (hv : ∀ j, j < nb → ∀ k : Fin B, v j k = ((g (j * B + k.val) : ℝ) : EReal)) :
    ∀ n, n < nb → ∃ m : ℝ, run x v (n + 1)
      = ((m : EReal), ((∑ q ∈ Finset.range ((n + 1) * B), Real.exp (f q - m) : ℝ) : EReal),
         ((∑ q ∈ Finset.range ((n + 1) * B), Real.exp (f q - m) * g q : ℝ) : EReal)) := by
  intro n
  induction n with
  | zero =>
    intro h0
    have e1 : x 0 = fun k : Fin B => ((f (0 * B + k.val) : ℝ) : EReal) := funext (hx 0 h0)
    have e2 : v 0 = fun k : Fin B => ((g (0 * B + k.val) : ℝ) : EReal) := funext (hv 0 h0)
    obtain ⟨m, hm⟩ := step_bot hB (fun k => f (0 * B + k.val)) (fun k => g (0 * B + k.val))
    refine ⟨m, ?_⟩
    show step (x 0) (v 0) (⊥, 0, 0) = _
    rw [e1, e2, hm]
    have s1 := rescale_sum_one f m m 0 B
    have s2 := rescale_sum f g m m 0 B
    simp only [Finset.range_zero, Finset.sum_empty, mul_zero, zero_add] at s1 s2
    simp only [Nat.zero_mul, zero_add, one_mul, s1, s2]
  | succ n ih =>
    intro hn
    obtain ⟨m, hm⟩ := ih (by omega)
    have e1 : x (n + 1) = fun k : Fin B => ((f ((n + 1) * B + k.val) : ℝ) : EReal) := funext (hx (n + 1) hn)
    have e2 : v (n + 1) = fun k : Fin B => ((g ((n + 1) * B + k.val) : ℝ) : EReal) := funext (hv (n + 1) hn)
    obtain ⟨m', hm'⟩ := step_coe hB (fun k => f ((n + 1) * B + k.val)) (fun k => g ((n + 1) * B + k.val)) m
      (∑ q ∈ Finset.range ((n + 1) * B), Real.exp (f q - m))
      (∑ q ∈ Finset.range ((n + 1) * B), Real.exp (f q - m) * g q)
    refine ⟨m', ?_⟩
    show step (x (n + 1)) (v (n + 1)) (run x v (n + 1)) = _
    rw [e1, e2, hm, hm', rescale_sum_one, rescale_sum, ← Nat.succ_mul]

theorem attn_coe {K : Nat} (hK : 0 < K) (Xr Vr : Fin K → ℝ) :
    ∃ M : ℝ, Cert.Spec.attn (fun k => ((Xr k : ℝ) : EReal)) (fun k => ((Vr k : ℝ) : EReal))
      = ((∑ k, Real.exp (Xr k - M) / (∑ k', Real.exp (Xr k' - M)) * Vr k : ℝ) : EReal) := by
  obtain ⟨M, hM⟩ := sup_coe hK Xr
  refine ⟨M, ?_⟩
  haveI : Nonempty (Fin K) := ⟨⟨0, hK⟩⟩
  have hZ : (∑ k', Real.exp (Xr k' - M)) ≠ 0 :=
    (Finset.sum_pos (fun q _ => Real.exp_pos _) Finset.univ_nonempty).ne'
  simp only [Cert.Spec.attn, hM, ← EReal.coe_sub, Ideal.exp_coe, Cert.ERealBN.coe_sum, div_coe_coe _ hZ,
    ← EReal.coe_mul]

/-- After the last block the quotient of the two running sums is the softmax attention of the whole row. -/
theorem run_div_eq_attn {B nb K : Nat} (hK : K = nb * B) (hB : 0 < B) (hnb : 0 < nb) (X V : Fin K → EReal)
    (hX : ∀ q, ∃ r : ℝ, X q = (r : EReal)) (hV : ∀ q, ∃ r : ℝ, V q = (r : EReal))
    (x v : ℕ → Fin B → EReal)
    (hx : ∀ (j : ℕ) (hj : j < nb) (k : Fin B), x j k = X ⟨j * B + k.val, by
      rw [hK]; calc j * B + k.val < j * B + B := by omega
        _ = (j + 1) * B := by ring
        _ ≤ nb * B := Nat.mul_le_mul_right B hj⟩)
    (hv : ∀ (j : ℕ) (hj : j < nb) (k : Fin B), v j k = V ⟨j * B + k.val, by
      rw [hK]; calc j * B + k.val < j * B + B := by omega
        _ = (j + 1) * B := by ring
        _ ≤ nb * B := Nat.mul_le_mul_right B hj⟩) :
    Ideal.div (run x v nb).2.2 (run x v nb).2.1 = Cert.Spec.attn X V := by
  subst hK
  choose Xr hXr using hX
  choose Vr hVr using hV
  let f : ℕ → ℝ := fun q => if h : q < nb * B then Xr ⟨q, h⟩ else 0
  let g : ℕ → ℝ := fun q => if h : q < nb * B then Vr ⟨q, h⟩ else 0
  have hf : ∀ k : Fin (nb * B), f k.val = Xr k := fun k => by
    show (if h : k.val < nb * B then Xr ⟨k.val, h⟩ else 0) = Xr k
    rw [dif_pos k.2]
  have hg : ∀ k : Fin (nb * B), g k.val = Vr k := fun k => by
    show (if h : k.val < nb * B then Vr ⟨k.val, h⟩ else 0) = Vr k
    rw [dif_pos k.2]
  have hx' : ∀ j, j < nb → ∀ k : Fin B, x j k = ((f (j * B + k.val) : ℝ) : EReal) := fun j hj k => by
    rw [hx j hj k, hXr, ← hf]
  have hv' : ∀ j, j < nb → ∀ k : Fin B, v j k = ((g (j * B + k.val) : ℝ) : EReal) := fun j hj k => by
    rw [hv j hj k, hVr, ← hg]
  obtain ⟨n, rfl⟩ : ∃ n, nb = n + 1 := ⟨nb - 1, by omega⟩
  obtain ⟨m, hm⟩ := run_coe hB f g x v (n + 1) hx' hv' n (Nat.lt_succ_self n)
  have hKpos : 0 < (n + 1) * B := Nat.mul_pos (Nat.succ_pos n) hB
  obtain ⟨M, hM⟩ := attn_coe hKpos Xr Vr
  have eX : X = fun k => ((Xr k : ℝ) : EReal) := funext hXr
  have eV : V = fun k => ((Vr k : ℝ) : EReal) := funext hVr
  have hZ : (∑ q ∈ Finset.range ((n + 1) * B), Real.exp (f q - m)) ≠ 0 :=
    (Finset.sum_pos (fun q _ => Real.exp_pos _) ⟨0, Finset.mem_range.mpr hKpos⟩).ne'
  rw [hm, eX, eV, hM, div_coe_coe _ hZ, Finset.sum_range, Finset.sum_range]
  simp only [hf, hg]
  rw [softmax_shift Finset.univ Xr Vr m M]

end Cert.OnlineSoftmax

/-! Reshapes, row reductions and matrix products of a two-dimensional block, read at a row and a column. -/
namespace Cert.Block

open Idealize.ShloMosaic Idealize.ShloMosaic.ValueIdx

theorem ofBits_negInf : Ideal.ofBits .f32 0xFF800000#32 = (⊥ : EReal) := by
  simp [Ideal.ofBits, Ideal.ieee]

theorem exp_at {s : Shape} {φ : FTy} (x : FVec Ideal s φ) (i : s.Idx) : exp x i = Ideal.exp (x i) := rfl

variable {α : Type} {a b : ℕ}

/-- A vector of `a` entries as an `a × 1` matrix keeps entry `r` in row `r`. -/
theorem cast_col (v : (⟨1, ![a]⟩ : Shape).Idx → α) (h : (⟨1, ![a]⟩ : Shape).ShapeCasts ⟨2, ![a, 1]⟩) (r : Fin a) (u : Fin 1) :
    shapeCast ⟨2, ![a, 1]⟩ v h (ix2 r u) = v (ix1 r) :=
  shapeCast_apply v h _ _ (by
    rw [Shape.rowMajor_val_two, Shape.rowMajor_val_one]
    show r.val = r.val * 1 + u.val
    omega)

/-- An `a × 1` column repeated over `b` columns reads its row's entry in every column. -/
theorem bcast_col (v : (⟨2, ![a, 1]⟩ : Shape).Idx → α) (h : (⟨2, ![a, 1]⟩ : Shape).Broadcasts ⟨2, ![a, b]⟩) (r : Fin a) (k : Fin b) :
    broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

theorem lift_ix2 (h : (⟨2, ![a, b]⟩ : Shape).Reduces [1] ⟨1, ![a]⟩) (r : Fin a) (k : Fin b) :
    h.lift (ix1 r) k = ix2 r k :=
  funext fun x => Fin.ext (match x with
    | ⟨0, _⟩ => rfl
    | ⟨1, _⟩ => rfl)

/-- The sum of row `r` of an `a × b` block. -/
theorem row_sum (src : FVec Ideal ⟨2, ![a, b]⟩ .f32) (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) :=
  (Ideal.multiReduction_add_single src _ h hφ hacc (ix1 r)).trans
    (Finset.sum_congr rfl fun k _ => congrArg src (lift_ix2 h r k))

/-- The largest entry of row `r` of an `a × b` block, the bottom element if there is none. -/
theorem row_sup (src : FVec Ideal ⟨2, ![a, b]⟩ .f32) (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r) = Finset.univ.sup fun k : Fin b => src (ix2 r k) := by
  refine (Ideal.multiReduction_maximumf_single src _ h hφ hacc (ix1 r)).trans ?_
  show Finset.univ.fold max (Ideal.ofBits .f32 0xFF800000#32) (src ∘ h.lift (ix1 r)) = _
  rw [ofBits_negInf, show (src ∘ h.lift (ix1 r)) = fun k : Fin b => src (ix2 r k) from
    funext fun k => congrArg src (lift_ix2 h r k)]
  rfl

/-- A rows-by-columns product into a zero accumulator, at `(r, c)`: the sum over the contracted coordinate. -/
theorem matmul_ix2 {M K N : ℕ} {φ₁ φ₂ : FTy} (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂) (r : Fin M) (c : Fin N) :
    matmul D prec lhs rhs (constant (F := Ideal) ⟨2, ![M, N]⟩ .f32 0x00000000#32) (ix2 r c)
      = ∑ k : Fin K, lhs (ix2 r k) * rhs (ix2 k c) := by
  subst hD
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  rw [show (DotDims.plain M K N).lhsIdx (ix2 r c) ((contrEquiv1 (DotDims.plain M K N) K rfl rfl).symm k) = ix2 r k from
      funext fun x => Fin.ext (match x with
        | ⟨0, _⟩ => rfl
        | ⟨1, _⟩ => hk),
    show (DotDims.plain M K N).rhsIdx (ix2 r c) ((contrEquiv1 (DotDims.plain M K N) K rfl rfl).symm k) = ix2 k c from
      funext fun x => Fin.ext (match x with
        | ⟨0, _⟩ => hk
        | ⟨1, _⟩ => rfl)]

variable {R K D : ℕ}

/-- One block of the streaming recurrence on matrices, read at a row and a column: scores `S`, values `V`, the new maximum `m'`, the rescaling `α`, the weights `p`. -/
theorem step_at (S p : FVec Ideal ⟨2, ![R, K]⟩ .f32) (V : FVec Ideal ⟨2, ![K, D]⟩ .bf16) (m l m' α : FVec Ideal ⟨2, ![R, 1]⟩ .f32)
    (A : FVec Ideal ⟨2, ![R, D]⟩ .f32) (hr : (⟨2, ![R, K]⟩ : Shape).Reduces [1] ⟨1, ![R]⟩) (hφ : FKind.Formats .f32)
    (h0 : (0x00000000#32 : BitVec 32) = FKind.add.neutral .f32 hφ) (h1 : (0xFF800000#32 : BitVec 32) = FKind.maximumf.neutral .f32 hφ)
    (hc : (⟨1, ![R]⟩ : Shape).ShapeCasts ⟨2, ![R, 1]⟩) (h11 : (⟨2, ![R, 1]⟩ : Shape).ShapeCasts ⟨2, ![R, 1]⟩)
    (hDD : (⟨2, ![R, D]⟩ : Shape).ShapeCasts ⟨2, ![R, D]⟩) (hbK : (⟨2, ![R, 1]⟩ : Shape).Broadcasts ⟨2, ![R, K]⟩)
    (hbD : (⟨2, ![R, 1]⟩ : Shape).Broadcasts ⟨2, ![R, D]⟩) (hlt : FTy.bf16.bits < FTy.f32.bits)
    (Dd : DotDims ⟨2, ![R, K]⟩ ⟨2, ![K, D]⟩ ⟨2, ![R, D]⟩) (hD : Dd = DotDims.plain R K D) (prec : Option ContractPrecision)
    (hm' : m' = maximumf m (shapeCast ⟨2, ![R, 1]⟩ (multiReduction .maximumf [1] ⟨1, ![R]⟩ S 0xFF800000#32 hr hφ h1) hc))
    (hα : α = exp (subf m m')) (hp : p = exp (subf S (broadcastTo ⟨2, ![R, K]⟩ m' hbK))) (r : Fin R) (d : Fin D) :
    (shapeCast ⟨2, ![R, 1]⟩ m' h11 (ix2 r 0),
      shapeCast ⟨2, ![R, 1]⟩ (addf (mulf α l) (shapeCast ⟨2, ![R, 1]⟩ (multiReduction .add [1] ⟨1, ![R]⟩ p 0x00000000#32 hr hφ h0) hc)) h11 (ix2 r 0),
      shapeCast ⟨2, ![R, D]⟩ (addf (mulf (broadcastTo ⟨2, ![R, D]⟩ α hbD) A)
        (matmul Dd prec (truncf .bf16 p hlt) V (constant ⟨2, ![R, D]⟩ .f32 0x00000000#32))) hDD (ix2 r d))
      = Cert.OnlineSoftmax.step (fun k => S (ix2 r k)) (fun k => V (ix2 k d)) (m (ix2 r 0), l (ix2 r 0), A (ix2 r d)) := by
  have e : m' (ix2 r (0 : Fin 1)) = max (m (ix2 r 0)) (Finset.univ.sup fun k => S (ix2 r k)) := by
    rw [hm', maximumf_apply, cast_col, row_sup]
  unfold Cert.OnlineSoftmax.step
  simp only [shapeCast_self, addf_apply, mulf_apply, cast_col, bcast_col, matmul_ix2 Dd hD, truncf_apply, hα, hp, exp_at,
    subf_apply, e]
  rw [row_sum]
  simp only [exp_at, subf_apply, bcast_col, e]

end Cert.Block

end
-- ==== Proof.Ideal.R0Step.lean ====
import proofs.«400831_j17978733101719_3_alg».proof.Proof.Gen.KernelIdeal.Skeleton
import proofs.«400831_j17978733101719_3_alg».proof.Proof.Spec
import proofs.«400831_j17978733101719_3_alg».proof.Proof.LibOnlineSoftmax
import proofs.«400831_j17978733101719_3_alg».proof.Proof.Ideal.R0StepDefs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val0

open Cert.KernelIdeal Cert.KernelIdeal.Gen Idealize.ShloMosaic Idealize.ShloMosaic.ValueIdx Cert.Block

/-- A word positive as a signed integer, widened and converted, is the adjacency weight. -/
private theorem mask_word (a : BitVec 32) :
    ((((IntOp.cmpi .sgt a 0#32).setWidth 32).toInt : ℝ) : EReal) = Cert.Spec.maskv a := by
  by_cases h : 0 < a.toInt <;> simp [Cert.Spec.maskv, IntOp.cmpi, BitVec.slt, h]

variable (x0 : Vec Ideal S512x128 .f32) (v7 : Vec Ideal S1024x128 .f32) (x2 : Vec Ideal S512x1024 .i32)

private theorem pay10_at (r : Fin 512) (k : Fin 1024) :
    k0_pay10 (F := Ideal) x2 (ix2 r k) = Cert.Spec.maskv (x2 (ix2 r k)) :=
  mask_word _

private theorem pay11_at (r : Fin 512) (k : Fin 1024) : k0_pay11 x0 v7 x2 (ix2 r k) = scoreU x0 v7 x2 r k := by
  unfold k0_pay11 k0_pay9 scoreU Cert.Spec.score
  simp only [addf_apply, mulf_apply, subf_apply, broadcast_apply, pay10_at]
  rw [matmul_ix2 dot_S512x128_S128x1024_S512x1024_1_0_0_1_n_n rfl]
  have e (d : Fin 128) := transpose_ix2_apply (truncf (F := Ideal) FTy.bf16 v7 bitsLt_bf16_f32) transposes_S1024x128_p1_0_S128x1024 d k
  simp only [truncf_apply, e]
  show _ * _ + (Ideal.ofBits .f32 0x3F800000#32 - _) * Ideal.ofBits .f32 0xCE6E6B28#32 = _
  rw [Ideal.ofBits_one_f32]

/-- One grid point's update, read at a row and a column, is one block of the streaming recurrence on that row. -/
theorem stepU_at (s : St0) (r : Fin 512) (d : Fin 128) :
    ((stepU x0 v7 x2 s).1 (ix2 r 0), (stepU x0 v7 x2 s).2.1 (ix2 r 0), (stepU x0 v7 x2 s).2.2 (ix2 r d))
      = Cert.OnlineSoftmax.step (scoreU x0 v7 x2 r) (fun k => v7 (ix2 k d)) (s.1 (ix2 r 0), s.2.1 (ix2 r 0), s.2.2 (ix2 r d)) :=
  (step_at (k0_pay11 x0 v7 x2) (k0_pay14 x0 v7 x2 s.1) (k0_pay9 v7) s.1 s.2.1 (k0_pay12 x0 v7 x2 s.1) (k0_pay13 x0 v7 x2 s.1 s.1) s.2.2
    _ _ _ _ _ _ _ _ _ _ dot_S512x1024_S1024x128_S512x128_1_0_0_1_n_n rfl _ rfl rfl rfl r d).trans
    (congrArg (Cert.OnlineSoftmax.step · _ _) (funext (pay11_at x0 v7 x2 r)))

theorem initU_at (r : Fin 512) (d : Fin 128) :
    (initU.1 (ix2 r 0), initU.2.1 (ix2 r 0), initU.2.2 (ix2 r d)) = ((⊥ : EReal), (0 : EReal), (0 : EReal)) := by
  unfold initU k0_pay6 k0_pay7 k0_pay8
  simp only [shapeCast_self]
  exact congrArg₂ Prod.mk ofBits_negInf (congrArg₂ Prod.mk Ideal.ofBits_zero_f32 Ideal.ofBits_zero_f32)

/-- The output at a row and a column: the rectified linear image of the user row plus the weighted sum over the sum of exponentials. -/
theorem pay5_at (sA : Vec Ideal S512x128 .f32) (sL : Vec Ideal S512x1 .f32)
    (x3 : Vec Ideal S128x128 .f32) (x4 : Vec Ideal S1x128 .f32) (r : Fin 512) (d : Fin 128) :
    k0_pay5 x0 sA sL x3 x4 (ix2 r d)
      = Cert.Spec.lin (fun d' => x0 (ix2 r d')) (fun a c => x3 (ix2 c a)) (fun a => x4 (ix2 0 a)) d
        + Ideal.div (sA (ix2 r d)) (sL (ix2 r 0)) := by
  unfold k0_pay5 Cert.Spec.lin
  rw [shapeCast_self, shapeCast_self]
  simp only [addf_apply, maximumf_apply, divf_apply, broadcast_apply]
  rw [bcast_col, broadcastTo_1b_ab_apply, matmul_ix2 dot_S512x128_S128x128_S512x128_1_0_0_1_n_n rfl]
  show max (_ + _) (Ideal.ofBits .f32 0x00000000#32) + _ = _
  rw [Ideal.ofBits_zero_f32]

/-- The transposed mask at a key and a row is the adjacency weight of the row and the key. -/
theorem pay4_at (k : Fin 1024) (r : Fin 512) :
    k0_pay4 (k0_pay10 x2) (ix2 k r) = Cert.Spec.maskv (x2 (ix2 r k)) :=
  (transpose_ix2_apply (k0_pay10 (F := Ideal) x2) _ k r).trans (pay10_at x2 r k)

end Cert.KernelIdeal.Val0

end
-- ==== Proof.V0Value.lean ====
import proofs.«400831_j17978733101719_3_alg».proof.Proof.V0Pieces
import proofs.«400831_j17978733101719_3_alg».proof.Proof.V0Geom
import proofs.«400831_j17978733101719_3_alg».proof.Proof.Ideal.R0Step
import proofs.«400831_j17978733101719_3_alg».proof.Proof.LibOnlineSoftmax

noncomputable section

namespace Cert.KernelIdeal.Hand

open Cert.KernelIdeal Cert.KernelIdeal.Gen Cert.KernelIdeal.Val0
open Idealize.ShloMosaic Idealize.ShloMosaic.TcCoe Idealize.ShloMosaic.ValueIdx

namespace V0

/-- A masked score is a sum of products of reals, so it is real. -/
theorem score_isReal {D : ℕ} (q k : Fin D → EReal) (hq : ∀ d, ERealBN.IsReal (q d)) (hk : ∀ d, ERealBN.IsReal (k d))
    (a : BitVec 32) : ERealBN.IsReal (Spec.score q k a) := by
  have h1 : ERealBN.IsReal 1 := ⟨1, EReal.coe_one.symm⟩
  have hm : ERealBN.IsReal (Spec.maskv a) := by unfold Spec.maskv; split; exacts [h1, .zero]
  have hb : ERealBN.IsReal Spec.negBig :=
    ⟨-(15625000 * (2 : ℝ) ^ (6 : Int)), by simp [Spec.negBig, Ideal.ofBits, Ideal.ieee, -EReal.coe_mul]⟩
  unfold Spec.score
  exact ((ERealBN.IsReal.sum _ _ fun d _ => (hq d).mul (hk d)).mul hm).add ((h1.sub hm).mul hb)

/-- Block `j` of a row of 8192 entries cut into blocks of 1024; zero past the end. -/
def blocks (X : Fin 8192 → EReal) (j : ℕ) (k : Fin 1024) : EReal :=
  if h : j * 1024 + k.val < 8192 then X ⟨j * 1024 + k.val, h⟩ else 0

theorem blocks_eq (X : Fin 8192 → EReal) (j : ℕ) (hj : j < 8) (k : Fin 1024) :
    blocks X j k = X ⟨j * 1024 + k.val, by omega⟩ := dif_pos _

theorem urow_eq (t : Fin cfg0.N) (i j : ℕ) (ht : t.val = 8 * i + j) (hj : j < 8) (hi : i < 32) (r : Fin 512) :
    urow0 t r = ⟨512 * i + r.val, by omega⟩ := Fin.ext (by show 512 * (t.val / 8) + r.val = 512 * i + r.val; omega)

theorem icol_eq (t : Fin cfg0.N) (i j : ℕ) (ht : t.val = 8 * i + j) (hj : j < 8) (k : Fin 1024) :
    icol0 t k = ⟨j * 1024 + k.val, by omega⟩ := Fin.ext (by show 1024 * (t.val % 8) + k.val = j * 1024 + k.val; omega)

section
variable (V : (c : Dev nD) → (b : Ref sig .tc) → Buf (Elt Ideal) ((c : Thread nD τ).loc b)) (c : Dev nD)

def rowX (n : Fin 16384) (q : Fin 8192) : EReal :=
  Spec.score (fun d' => V c main_arg0 (ix2 n d')) (fun d' => V c main_arg1 (ix2 q d')) (V c main_arg2 (ix2 n q))

def rowV (d : Fin 128) (q : Fin 8192) : EReal := V c main_arg1 (ix2 q d)

/-- The running (largest score, sum of exponentials, weighted sum) after point `t`. -/
def trip0 (t : Fin cfg0.N) : St0 :=
  ((outsAt0 V c t.val t.isLt).2.2.1, (outsAt0 V c t.val t.isLt).2.2.2.1, (outsAt0 V c t.val t.isLt).2.2.2.2)

/-- One point's update of a running state, with the point's own blocks. -/
def blkStep0 (t : Fin cfg0.N) (s : St0) : St0 :=
  stepU (iblk0 V c 0 t) (itemBlk (grid0.coords t) (iblk0 V c 1 t)) (iblk0 V c 2 t) s

def prev0 (t : Fin cfg0.N) : Fin cfg0.N := ⟨t.val - 1, Nat.lt_of_le_of_lt (Nat.sub_le _ _) t.isLt⟩

theorem trip0_first (t : Fin cfg0.N) (h0 : t.val % 8 = 0) : trip0 V c t = blkStep0 V c t initU := by
  unfold trip0 blkStep0
  rw [outsAt0_A V c t h0 (by omega)]
  exact (res0_A_eq ..).2

theorem trip0_next (t : Fin cfg0.N) (h0 : ¬t.val % 8 = 0) :
    trip0 V c t = blkStep0 V c t (trip0 V c (prev0 t)) := by
  unfold trip0 blkStep0 prev0
  by_cases h1 : t.val % 8 = 7
  · rw [outsAt0_C V c t h0 h1]
    exact (res0_C_eq ..).2.2
  · rw [outsAt0_B V c t h0 h1]
    exact (res0_B_eq ..).2

theorem out6_eq (t : Fin cfg0.N) : (outsAt0 V c t.val t.isLt).2.1 = k0_pay4 (k0_pay10 (iblk0 V c 2 t)) := by
  by_cases h0 : t.val % 8 = 0
  · rw [outsAt0_A V c t h0 (by omega)]
    exact (res0_A_eq ..).1
  · by_cases h1 : t.val % 8 = 7
    · rw [outsAt0_C V c t h0 h1]
      exact (res0_C_eq ..).2.1
    · rw [outsAt0_B V c t h0 h1]
      exact (res0_B_eq ..).1

theorem out5_eq (t : Fin cfg0.N) (h1 : t.val % 8 = 7) :
    (outsAt0 V c t.val t.isLt).1
      = k0_pay5 (iblk0 V c 0 t) (trip0 V c t).2.2 (trip0 V c t).2.1 (iblk0 V c 3 t) (iblk0 V c 4 t) := by
  have h0 : ¬t.val % 8 = 0 := by omega
  rw [trip0_next V c t h0, outsAt0_C V c t h0 h1]
  exact (res0_C_eq ..).1

/-- The entries of a running state that row `r`, column `d` reads. -/
def ent0 (s : St0) (r : Fin 512) (d : Fin 128) : EReal × EReal × EReal :=
  (s.1 (ix2 r 0), s.2.1 (ix2 r 0), s.2.2 (ix2 r d))

/-- Read at one row and column, the update at point `8 i + j` is the streaming softmax's step on block `j` of user row `512 i + r`. -/
theorem ent0_blkStep0 (t : Fin cfg0.N) (i j : ℕ) (ht : t.val = 8 * i + j) (hj : j < 8) (hi : i < 32)
    (r : Fin 512) (d : Fin 128) (s : St0) :
    ent0 (blkStep0 V c t s) r d
      = OnlineSoftmax.step (blocks (rowX V c ⟨512 * i + r.val, by omega⟩) j) (blocks (rowV V c d) j) (ent0 s r d) := by
  have e1 : scoreU (iblk0 V c 0 t) (itemBlk (grid0.coords t) (iblk0 V c 1 t)) (iblk0 V c 2 t) r
      = blocks (rowX V c ⟨512 * i + r.val, by omega⟩) j := funext fun k => by
    rw [blocks_eq _ j hj, ← urow_eq t i j ht hj hi r, ← icol_eq t i j ht hj k]
    unfold scoreU rowX
    simp only [iblk0_0_apply, itemBlk_apply, iblk0_1_apply, iblk0_2_apply]
  have e2 : (fun k => itemBlk (grid0.coords t) (iblk0 V c 1 t) (ix2 k d)) = blocks (rowV V c d) j :=
    funext fun k => by
      rw [blocks_eq _ j hj, ← icol_eq t i j ht hj k]
      unfold rowV
      simp only [itemBlk_apply, iblk0_1_apply]
  unfold blkStep0 ent0
  rw [stepU_at, e1, e2]

/-- By induction over the item blocks: after point `8 i + j` the entries are the streaming state after `j + 1` blocks. -/
theorem ent0_trip0 (i : ℕ) (hi : i < 32) (r : Fin 512) (d : Fin 128) :
    ∀ j : ℕ, j < 8 → ∀ t : Fin cfg0.N, t.val = 8 * i + j →
      ent0 (trip0 V c t) r d
        = OnlineSoftmax.run (blocks (rowX V c ⟨512 * i + r.val, by omega⟩)) (blocks (rowV V c d)) (j + 1) := by
  intro j
  induction j with
  | zero =>
    intro hj t ht
    rw [trip0_first V c t (by omega), ent0_blkStep0 V c t i 0 ht hj hi r d,
      show ent0 initU r d = ((⊥ : EReal), (0 : EReal), (0 : EReal)) from initU_at r d]
    rfl
  | succ j ih =>
    intro hj t ht
    rw [trip0_next V c t (by omega), ent0_blkStep0 V c t i (j + 1) ht hj hi r d,
      ih (by omega) (prev0 t) (by show t.val - 1 = 8 * i + j; omega)]
    rfl

def upd5 (j : S16384x128.Idx) : EReal :=
  Spec.lin (fun d' => V c main_arg0 (ix2 (j 0) d')) (fun a c' => V c main_v0 (ix2 c' a))
      (fun a => V c main_v1 (ix2 (0 : Fin 1) a)) (j 1)
    + Spec.attn (rowX V c (j 0)) (rowV V c (j 1))

/-- After a user block's last point the quotient written out is the whole row's attention, the scores being real. -/
theorem out5_at (hU : ∀ i, ∃ r : ℝ, V c main_arg0 i = (r : EReal)) (hI : ∀ i, ∃ r : ℝ, V c main_arg1 i = (r : EReal))
    (t : Fin cfg0.N) (h7 : t.val % 8 = 7) (r : Fin 512) (d : Fin 128) :
    (outsAt0 V c t.val t.isLt).1 (ix2 r d) = upd5 V c (ix2 (urow0 t r) d) := by
  have hN : t.val < 256 := lt_of_lt_of_eq t.isLt N_0
  have ht : t.val = 8 * (t.val / 8) + 7 := by omega
  have hi : t.val / 8 < 32 := by omega
  have hent := ent0_trip0 V c (t.val / 8) hi r d 7 (by omega) t ht
  rw [← urow_eq t (t.val / 8) 7 ht (by omega) hi r] at hent
  have hattn := OnlineSoftmax.run_div_eq_attn (B := 1024) (nb := 8) (K := 8192) (by norm_num) (by norm_num)
    (by norm_num) (rowX V c (urow0 t r)) (rowV V c d)
    (fun q => score_isReal _ _ (fun _ => hU _) (fun _ => hI _) _) (fun q => hI _)
    (blocks (rowX V c (urow0 t r))) (blocks (rowV V c d))
    (fun j hj k => blocks_eq _ j hj k) (fun j hj k => blocks_eq _ j hj k)
  rw [out5_eq V c t h7, pay5_at]
  unfold upd5
  refine congrArg₂ (· + ·) ?_ ?_
  · simp only [iblk0_0_apply, iblk0_3_apply, iblk0_4_apply]
  · rw [← hattn, ← hent]
    rfl

end

end V0

section Region0
variable (V : (c : Dev nD) → (b : Ref sig .tc) → Buf (Elt Ideal) ((c : Thread nD τ).loc b))

open V0

theorem final0_5 (c : Dev nD) (hU : ∀ i, ∃ r : ℝ, V c main_arg0 i = (r : EReal))
    (hI : ∀ i, ∃ r : ℝ, V c main_arg1 i = (r : EReal)) (n : Fin 16384) (d : Fin 128) :
    (dat0 (F := Ideal) V c).arrAt 5 cfg0.N (ix2 n d)
      = Spec.lin (fun d' => V c main_arg0 (ix2 n d')) (fun a c' => V c main_v0 (ix2 c' a))
          (fun a => V c main_v1 (ix2 (0 : Fin 1) a)) d
        + Spec.attn (fun k : Fin 8192 => Spec.score (fun d' => V c main_arg0 (ix2 n d'))
            (fun d' => V c main_arg1 (ix2 k d')) (V c main_arg2 (ix2 n k))) (fun k => V c main_arg1 (ix2 k d)) := by
  rw [arrAt0_5_eq V c (upd5 V c) (out5_at V c hU hI)]
  rfl

theorem final0_6 (c : Dev nD) (k : Fin 8192) (n : Fin 16384) :
    (dat0 (F := Ideal) V c).arrAt 6 cfg0.N (ix2 k n) = Spec.maskv (V c main_arg2 (ix2 n k)) := by
  rw [arrAt0_6_eq V c (fun j => Spec.maskv (V c main_arg2 (ix2 (j 1) (j 0)))) (fun t k r => by
    rw [out6_eq V c t, pay4_at, iblk0_2_apply])]

end Region0

end Cert.KernelIdeal.Hand

end
-- ==== Proof.Ideal.R1StepDefs.lean ====
import proofs.«400831_j17978733101719_3_alg».proof.Proof.Gen.KernelIdeal.Skeleton
import proofs.«400831_j17978733101719_3_alg».proof.Proof.Spec
import Idealize.ShloMosaic.Lib.ValueIdx

noncomputable section

namespace Cert.KernelIdeal.Val1

open Cert.KernelIdeal Cert.KernelIdeal.Gen Idealize.ShloMosaic Idealize.ShloMosaic.ValueIdx

abbrev St1 := Vec Ideal S1024x1 .f32 × Vec Ideal S1024x1 .f32 × Vec Ideal S1024x128 .f32

/-- One grid point's update of the running maximum, denominator and numerator. -/
def stepI (v3 : Vec Ideal S1024x128 .f32) (v7 : Vec Ideal S512x128 .f32) (v12 : Vec Ideal S1024x512 .bf16) (s : St1) : St1 :=
  (k1_pay3 (k1_pay10 v3 v7 v12 s.1), k1_pay1 (k1_pay13 v3 v7 v12 s.1 s.1 s.2.1), k1_pay2 (k1_pay8 v7) (k1_pay11 v3 v7 v12 s.1 s.1) (k1_pay12 v3 v7 v12 s.1) s.2.2)

/-- The state a row starts from. -/
def initI : St1 := (k1_pay5 (F := Ideal), k1_pay6 (F := Ideal), k1_pay7 (F := Ideal))

/-- The masked score of item row `k` against user row `n` of the block, the mask given as a weight. -/
def scoreI (v3 : Vec Ideal S1024x128 .f32) (v7 : Vec Ideal S512x128 .f32) (v12 : Vec Ideal S1024x512 .bf16) (k : Fin 1024) (n : Fin 512) : EReal :=
  (∑ d' : Fin 128, v3 (ix2 k d') * v7 (ix2 n d')) * v12 (ix2 k n) + (1 - v12 (ix2 k n)) * Cert.Spec.negBig

end Cert.KernelIdeal.Val1

end
-- ==== Proof.V1Pieces.lean ====
import proofs.«400831_j17978733101719_3_alg».proof.Proof.U1Res
import proofs.«400831_j17978733101719_3_alg».proof.Proof.Ideal.R1StepDefs
import proofs.«400831_j17978733101719_3_alg».proof.Proof.V0Pieces

noncomputable section

namespace Cert.KernelIdeal.Hand

open Cert.KernelIdeal Cert.KernelIdeal.Gen
open Idealize.ShloMosaic Idealize.ShloMosaic.Tactic
open Cert.KernelIdeal.Val1

def userBlk (i : grid1.Coords) (x1 : Vec Ideal S16384x128 .f32) : Vec Ideal S512x128 .f32 :=
  View.ld x1 (Rect.unit (s := S16384x128) (k1_off1 i) S512x128.size (k1_off1_inb i))

theorem coord1_1 : ∀ t : Fin cfg1.N, ((grid1.coords t) 1).val = t.val % 32 :=
  (by decide +kernel : ∀ t : Fin grid1.N, ((grid1.coords t) 1).val = t.val % 32)

theorem userBlk_apply (t : Fin cfg1.N) (x1 : Vec Ideal S16384x128 .f32) (n : Fin 512) (d : Fin 128) :
    userBlk (grid1.coords t) x1 (ValueIdx.ix2 n d)
      = x1 (ValueIdx.ix2 ⟨512 * (t.val % 32) + n.val, by have := t.isLt; have : cfg1.N = 256 := N_1; omega⟩ d) :=
  ld_rows_apply x1 _ (by rw [k1_off1_eq, coord1_1 t]; rfl) (by rw [k1_off1_eq]; rfl) n d _

variable (c : Dev nD) (i : grid1.Coords) (arg2 : Memref sig .tc .vmem S1024x128 .f32) (harg2 : arg2.IsWhole) (arg3 : Memref sig .tc .vmem S16384x128 .f32) (harg3 : arg3.IsWhole) (arg4 : Memref sig .tc .vmem S1024x512 .bf16) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)

section A
variable (hc0 : cond1_0 i) (hc1 : ¬cond1_1 i) (x0 : Vec Ideal S1024x128 .f32) (x1 : Vec Ideal S16384x128 .f32) (x2 : Vec Ideal S1024x512 .bf16) (x3 : Vec Ideal S128x128 .f32) (x4 : Vec Ideal S1x128 .f32)

theorem res1_A_eq :
    ((res1_A c i arg2 harg2 arg3 harg3 arg4 harg4 arg5 harg5 arg6 harg6 arg7 harg7 arg8 harg8 arg9 harg9 arg10 harg10 hc0 hc1 x0 x1 x2 x3 x4).2.1, (res1_A c i arg2 harg2 arg3 harg3 arg4 harg4 arg5 harg5 arg6 harg6 arg7 harg7 arg8 harg8 arg9 harg9 arg10 harg10 hc0 hc1 x0 x1 x2 x3 x4).2.2.1, (res1_A c i arg2 harg2 arg3 harg3 arg4 harg4 arg5 harg5 arg6 harg6 arg7 harg7 arg8 harg8 arg9 harg9 arg10 harg10 hc0 hc1 x0 x1 x2 x3 x4).2.2.2) = stepI x0 (userBlk i x1) x2 initI := by
  unfold res1_A kernelRun1_A
  sl_unfold_words
  simp only [read_writes_cons_whole (S := ⟨2, _⟩) _ _ hz2, View.readAt_eq_ld, harg2.read_unread, harg3.read_unread, harg4.read_unread, View.ld_unit_zero (S := ⟨2, _⟩) hz2, View.readCov_unit_zero (S := ⟨2, _⟩) _ hz2]
  rfl

end A

section B
variable (hc0 : ¬cond1_0 i) (hc1 : ¬cond1_1 i) (x0 : Vec Ideal S1024x128 .f32) (x1 : Vec Ideal S16384x128 .f32) (x2 : Vec Ideal S1024x512 .bf16) (x3 : Vec Ideal S128x128 .f32) (x4 : Vec Ideal S1x128 .f32) (xs0 : Vec Ideal S1024x1 .f32) (xs1 : Vec Ideal S1024x1 .f32) (xs2 : Vec Ideal S1024x128 .f32)

theorem res1_B_eq :
    ((res1_B c i arg2 harg2 arg3 harg3 arg4 harg4 arg5 harg5 arg6 harg6 arg7 harg7 arg8 harg8 arg9 harg9 arg10 harg10 hc0 hc1 x0 x1 x2 x3 x4 xs0 xs1 xs2).2.1, (res1_B c i arg2 harg2 arg3 harg3 arg4 harg4 arg5 harg5 arg6 harg6 arg7 harg7 arg8 harg8 arg9 harg9 arg10 harg10 hc0 hc1 x0 x1 x2 x3 x4 xs0 xs1 xs2).2.2.1, (res1_B c i arg2 harg2 arg3 harg3 arg4 harg4 arg5 harg5 arg6 harg6 arg7 harg7 arg8 harg8 arg9 harg9 arg10 harg10 hc0 hc1 x0 x1 x2 x3 x4 xs0 xs1 xs2).2.2.2) = stepI x0 (userBlk i x1) x2 (xs0, xs1, xs2) := by
  unfold res1_B kernelRun1_B
  sl_unfold_words
  simp only [read_writes_cons_whole (S := ⟨2, _⟩) _ _ hz2, View.readAt_eq_ld, harg2.read_unread, harg3.read_unread, harg4.read_unread, harg8.read_unread, harg9.read_unread, harg10.read_unread, View.ld_unit_zero (S := ⟨2, _⟩) hz2]
  rfl

end B

section C
variable (hc0 : ¬cond1_0 i) (hc1 : cond1_1 i) (x0 : Vec Ideal S1024x128 .f32) (x1 : Vec Ideal S16384x128 .f32) (x2 : Vec Ideal S1024x512 .bf16) (x3 : Vec Ideal S128x128 .f32) (x4 : Vec Ideal S1x128 .f32) (xs0 : Vec Ideal S1024x1 .f32) (xs1 : Vec Ideal S1024x1 .f32) (xs2 : Vec Ideal S1024x128 .f32)

theorem res1_C_eq :
    (res1_C c i arg2 harg2 arg3 harg3 arg4 harg4 arg5 harg5 arg6 harg6 arg7 harg7 arg8 harg8 arg9 harg9 arg10 harg10 hc0 hc1 x0 x1 x2 x3 x4 xs0 xs1 xs2).1 = k1_pay4 x0 (stepI x0 (userBlk i x1) x2 (xs0, xs1, xs2)).2.2 (stepI x0 (userBlk i x1) x2 (xs0, xs1, xs2)).2.1 x3 x4
      ∧ ((res1_C c i arg2 harg2 arg3 harg3 arg4 harg4 arg5 harg5 arg6 harg6 arg7 harg7 arg8 harg8 arg9 harg9 arg10 harg10 hc0 hc1 x0 x1 x2 x3 x4 xs0 xs1 xs2).2.1, (res1_C c i arg2 harg2 arg3 harg3 arg4 harg4 arg5 harg5 arg6 harg6 arg7 harg7 arg8 harg8 arg9 harg9 arg10 harg10 hc0 hc1 x0 x1 x2 x3 x4 xs0 xs1 xs2).2.2.1, (res1_C c i arg2 harg2 arg3 harg3 arg4 harg4 arg5 harg5 arg6 harg6 arg7 harg7 arg8 harg8 arg9 harg9 arg10 harg10 hc0 hc1 x0 x1 x2 x3 x4 xs0 xs1 xs2).2.2.2) = stepI x0 (userBlk i x1) x2 (xs0, xs1, xs2) := by
  unfold res1_C kernelRun1_C
  sl_unfold_words
  simp only [read_writes_cons_whole (S := ⟨2, _⟩) _ _ hz2, View.readAt_eq_ld, harg2.read_unread, harg3.read_unread, harg4.read_unread, harg5.read_unread, harg6.read_unread, harg8.read_unread, harg9.read_unread, harg10.read_unread, View.ld_unit_zero (S := ⟨2, _⟩) hz2, View.readCov_unit_zero (S := ⟨2, _⟩) _ hz2]
  exact ⟨rfl, rfl⟩

end C

end Cert.KernelIdeal.Hand

end
-- ==== Proof.V1Geom.lean ====
import proofs.«400831_j17978733101719_3_alg».proof.Proof.U1Frame
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx

variable {F : FTy → Type} [FloatOps F]

theorem blockIdx1 : ∀ t : Fin cfg1.N,
    win1_0.index t (0 : Fin 2) = t.val / 32 ∧ win1_0.index t (1 : Fin 2) = 0
    ∧ win1_1.index t (0 : Fin 2) = 0 ∧ win1_1.index t (1 : Fin 2) = 0
    ∧ win1_2.index t (0 : Fin 2) = t.val / 32 ∧ win1_2.index t (1 : Fin 2) = t.val % 32
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 32 ∧ win1_5.index t (1 : Fin 2) = 0 :=
  (by decide +kernel : ∀ t : Fin grid1.N, _)

/-- An index of a two-axis shape is fixed by its two coordinates. -/
theorem ix2_of_val1 {n0 n1 : ℕ} {i : (⟨2, ![n0, n1]⟩ : Shape).Idx} {a : Fin n0} {b : Fin n1}
    (h0 : (i 0).val = a.val) (h1 : (i 1).val = b.val) : i = ix2 a b :=
  (eq_ix2 i).trans (congrArg₂ ix2 (Fin.ext h0) (Fin.ext h1))

/-- The item row at row `k` of the blocks of point `t`. -/
abbrev irow1 (t : Fin cfg1.N) (k : Fin 1024) : Fin 8192 :=
  ⟨1024 * (t.val / 32) + k.val, by have : t.val < 256 := lt_of_lt_of_eq t.isLt N_1; omega⟩

/-- The user at position `m` of the blocks of point `t`. -/
abbrev ucol1 (t : Fin cfg1.N) (m : Fin 512) : Fin 16384 := ⟨512 * (t.val % 32) + m.val, by omega⟩

section Region1
variable (V : (c : Dev nD) → (b : Ref sig .tc) → Buf (Elt F) ((c : Thread nD τ).loc b)) (c : Dev nD) (t : Fin cfg1.N)

theorem iblk1_0_apply (k : Fin 1024) (d : Fin 128) : iblk1 V c 0 t (ix2 k d) = V c main_arg1 (ix2 (irow1 t k) d) := by
  obtain ⟨e0, e1, -⟩ := blockIdx1 t
  show V c main_arg1 (((cfg1.win 0).blk t).view.emb (ix2 k d)) = _
  refine congrArg _ (ix2_of_val1 ?_ ?_)
  · show win1_0.index t (0 : Fin 2) * 1024 + 1 * k.val = 1024 * (t.val / 32) + k.val; omega
  · show win1_0.index t (1 : Fin 2) * 128 + 1 * d.val = d.val; omega

theorem iblk1_1_apply (n : Fin 16384) (d : Fin 128) : iblk1 V c 1 t (ix2 n d) = V c main_arg0 (ix2 n d) := by
  obtain ⟨-, -, e0, e1, -⟩ := blockIdx1 t
  show V c main_arg0 (((cfg1.win 1).blk t).view.emb (ix2 n d)) = _
  refine congrArg _ (ix2_of_val1 ?_ ?_)
  · show win1_1.index t (0 : Fin 2) * 16384 + 1 * n.val = n.val; omega
  · show win1_1.index t (1 : Fin 2) * 128 + 1 * d.val = d.val; omega

theorem iblk1_2_apply (k : Fin 1024) (m : Fin 512) :
    iblk1 V c 2 t (ix2 k m) = V c main_v2_1 (ix2 (irow1 t k) (ucol1 t m)) := by
  obtain ⟨-, -, -, -, e0, e1, -⟩ := blockIdx1 t
  show V c main_v2_1 (((cfg1.win 2).blk t).view.emb (ix2 k m)) = _
  refine congrArg _ (ix2_of_val1 ?_ ?_)
  · show win1_2.index t (0 : Fin 2) * 1024 + 1 * k.val = 1024 * (t.val / 32) + k.val; omega
  · show win1_2.index t (1 : Fin 2) * 512 + 1 * m.val = 512 * (t.val % 32) + m.val; omega

theorem iblk1_3_apply (a b : Fin 128) : iblk1 V c 3 t (ix2 a b) = V c main_v0 (ix2 a b) := by
  obtain ⟨-, -, -, -, -, -, e0, e1, -⟩ := blockIdx1 t
  show V c main_v0 (((cfg1.win 3).blk t).view.emb (ix2 a b)) = _
  refine congrArg _ (ix2_of_val1 ?_ ?_)
  · show win1_3.index t (0 : Fin 2) * 128 + 1 * a.val = a.val; omega
  · show win1_3.index t (1 : Fin 2) * 128 + 1 * b.val = b.val; omega

theorem iblk1_4_apply (a : Fin 128) : iblk1 V c 4 t (ix2 (0 : Fin 1) a) = V c main_v1 (ix2 (0 : Fin 1) a) := by
  obtain ⟨-, -, -, -, -, -, -, -, e0, e1, -⟩ := blockIdx1 t
  show V c main_v1 (((cfg1.win 4).blk t).view.emb (ix2 (0 : Fin 1) a)) = _
  refine congrArg _ (ix2_of_val1 ?_ ?_)
  · show win1_4.index t (0 : Fin 2) * 1 + 1 * (0 : Fin 1).val = (0 : Fin 1).val; omega
  · show win1_4.index t (1 : Fin 2) * 128 + 1 * a.val = a.val; omega

theorem emb1_5 (k : Fin 1024) (d : Fin 128) : ((cfg1.win 5).blk t).view.emb (ix2 k d) = ix2 (irow1 t k) d := by
  obtain ⟨-, -, -, -, -, -, -, -, -, -, e0, e1⟩ := blockIdx1 t
  refine ix2_of_val1 ?_ ?_
  · show win1_5.index t (0 : Fin 2) * 1024 + 1 * k.val = 1024 * (t.val / 32) + k.val; omega
  · show win1_5.index t (1 : Fin 2) * 128 + 1 * d.val = d.val; omega

omit t in
/-- The finishing points' blocks cover the updated-item array, so it ends as what they leave. -/
theorem arrAt1_5_eq (G : (⟨2, ![8192, 128]⟩ : Shape).Idx → Elt F .f32)
    (h : ∀ t : Fin cfg1.N, t.val % 32 = 31 → ∀ (k : Fin 1024) (d : Fin 128),
      (outsAt1 V c t.val t.isLt).1 (ix2 k d) = G (ix2 (irow1 t k) d)) :
    (dat1 V c).arrAt 5 cfg1.N = G := by
  refine (dat1 V c).arrAt_eq_of_cover 5 G (fun t hf => ?_) fun i => ?_
  · show (cfg1.win 5).cut (grid1.coords t) ((dat1 V c).after 5 t) = _
    rw [after1_5]
    funext y
    obtain ⟨k, d, rfl⟩ : ∃ (k : Fin 1024) (d : Fin 128), y = ix2 k d := ⟨y 0, y 1, eq_ix2 y⟩
    exact (h t ((flush1_5 t).mp hf) k d).trans (congrArg G (emb1_5 t k d).symm)
  · have hi : (i 0).val < 8192 := (i 0).isLt
    have hN : cfg1.N = 256 := N_1
    obtain ⟨t, ht⟩ : ∃ t : Fin cfg1.N, t.val = 32 * ((i 0).val / 1024) + 31 := ⟨⟨_, by omega⟩, rfl⟩
    refine ⟨t, (flush1_5 t).mpr (by omega), ?_⟩
    rw [show i = _ from (ix2_of_val1 (a := irow1 t ⟨(i 0).val % 1024, by omega⟩) (b := i 1)
      (by show (i 0).val = 1024 * (t.val / 32) + (i 0).val % 1024; omega) rfl).trans (emb1_5 t _ _).symm]
    exact View.emb_mem_set _ _

end Region1

end Cert.KernelIdeal.Hand

end
-- ==== Proof.Ideal.R1Step.lean ====
import proofs.«400831_j17978733101719_3_alg».proof.Proof.Gen.KernelIdeal.Skeleton
import proofs.«400831_j17978733101719_3_alg».proof.Proof.Spec
import proofs.«400831_j17978733101719_3_alg».proof.Proof.LibOnlineSoftmax
import proofs.«400831_j17978733101719_3_alg».proof.Proof.Ideal.R1StepDefs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val1

open Cert.KernelIdeal Cert.KernelIdeal.Gen Idealize.ShloMosaic Idealize.ShloMosaic.ValueIdx Cert.Block

variable (v3 : Vec Ideal S1024x128 .f32) (v7 : Vec Ideal S512x128 .f32) (v12 : Vec Ideal S1024x512 .bf16)

private theorem pay9_at (k : Fin 1024) (n : Fin 512) : k1_pay9 v3 v7 v12 (ix2 k n) = scoreI v3 v7 v12 k n := by
  unfold k1_pay9 k1_pay8 scoreI
  simp only [addf_apply, mulf_apply, subf_apply, broadcast_apply, extf_apply, shapeCast_self,
    matmul_ix2 dot_S1024x128_S128x512_S1024x512_1_0_0_1_n_n rfl, truncf_apply]
  have e (c : Fin 128) := transpose_ix2_apply (truncf (F := Ideal) FTy.bf16 v7 bitsLt_bf16_f32) transposes_S512x128_p1_0_S128x512 c n
  simp only [truncf_apply, e]
  show _ * _ + (Ideal.ofBits .f32 0x3F800000#32 - _) * _ = _
  rw [Ideal.ofBits_one_f32]
  rfl

/-- One grid point's update, read at a row and a column, is one block of the streaming recurrence on that row. -/
theorem stepI_at (s : St1) (k : Fin 1024) (d : Fin 128) :
    ((stepI v3 v7 v12 s).1 (ix2 k (0 : Fin 1)), (stepI v3 v7 v12 s).2.1 (ix2 k (0 : Fin 1)), (stepI v3 v7 v12 s).2.2 (ix2 k d))
      = Cert.OnlineSoftmax.step (scoreI v3 v7 v12 k) (fun n => v7 (ix2 n d))
          (s.1 (ix2 k (0 : Fin 1)), s.2.1 (ix2 k (0 : Fin 1)), s.2.2 (ix2 k d)) :=
  (step_at (k1_pay9 v3 v7 v12) (k1_pay12 v3 v7 v12 s.1) (k1_pay8 v7) s.1 s.2.1 (k1_pay10 v3 v7 v12 s.1) (k1_pay11 v3 v7 v12 s.1 s.1) s.2.2
    _ _ _ _ _ _ _ _ _ _ dot_S1024x512_S512x128_S1024x128_1_0_0_1_n_n rfl _ rfl rfl rfl k d).trans
    (congrArg (Cert.OnlineSoftmax.step · _ _) (funext (pay9_at v3 v7 v12 k)))

theorem initI_at (k : Fin 1024) (d : Fin 128) :
    (initI.1 (ix2 k (0 : Fin 1)), initI.2.1 (ix2 k (0 : Fin 1)), initI.2.2 (ix2 k d)) = ((⊥ : EReal), (0 : EReal), (0 : EReal)) := by
  unfold initI k1_pay5 k1_pay6 k1_pay7
  simp only [shapeCast_self]
  exact congrArg₂ Prod.mk ofBits_negInf (congrArg₂ Prod.mk Ideal.ofBits_zero_f32 Ideal.ofBits_zero_f32)

/-- The output at a row and a column: the rectified linear image of the item row plus the weighted sum over the sum of exponentials. -/
theorem pay4_at (sA : Vec Ideal S1024x128 .f32) (sL : Vec Ideal S1024x1 .f32)
    (x3 : Vec Ideal S128x128 .f32) (x4 : Vec Ideal S1x128 .f32) (k : Fin 1024) (d : Fin 128) :
    k1_pay4 v3 sA sL x3 x4 (ix2 k d)
      = Cert.Spec.lin (fun d' => v3 (ix2 k d')) (fun a c => x3 (ix2 c a)) (fun a => x4 (ix2 (0 : Fin 1) a)) d
        + Ideal.div (sA (ix2 k d)) (sL (ix2 k (0 : Fin 1))) := by
  unfold k1_pay4 Cert.Spec.lin
  rw [shapeCast_self, shapeCast_self]
  simp only [addf_apply, maximumf_apply, divf_apply, broadcast_apply]
  rw [bcast_col, broadcastTo_1b_ab_apply, matmul_ix2 dot_S1024x128_S128x128_S1024x128_1_0_0_1_n_n rfl]
  show max (_ + _) (Ideal.ofBits .f32 0x00000000#32) + _ = _
  rw [Ideal.ofBits_zero_f32]

theorem scoreI_eq_score (k : Fin 1024) (n : Fin 512) (a : BitVec 32) (h : v12 (ix2 k n) = Cert.Spec.maskv a) :
    scoreI v3 v7 v12 k n = Cert.Spec.score (fun d' => v3 (ix2 k d')) (fun d' => v7 (ix2 n d')) a := by
  unfold scoreI Cert.Spec.score
  rw [h]

end Cert.KernelIdeal.Val1

end
-- ==== Proof.V1Value.lean ====
import proofs.«400831_j17978733101719_3_alg».proof.Proof.V1Pieces
import proofs.«400831_j17978733101719_3_alg».proof.Proof.V1Geom
import proofs.«400831_j17978733101719_3_alg».proof.Proof.Ideal.R1Step
import proofs.«400831_j17978733101719_3_alg».proof.Proof.LibOnlineSoftmax

noncomputable section

namespace Cert.KernelIdeal.Hand

open Cert.KernelIdeal Cert.KernelIdeal.Gen Cert.KernelIdeal.Val1
open Idealize.ShloMosaic Idealize.ShloMosaic.TcCoe Idealize.ShloMosaic.ValueIdx

namespace V1

/-- A masked score is a sum of products of reals, so it is real. -/
theorem score_isReal {D : ℕ} (q k : Fin D → EReal) (hq : ∀ d, ERealBN.IsReal (q d)) (hk : ∀ d, ERealBN.IsReal (k d))
    (a : BitVec 32) : ERealBN.IsReal (Spec.score q k a) := by
  have h1 : ERealBN.IsReal 1 := ⟨1, EReal.coe_one.symm⟩
  have hm : ERealBN.IsReal (Spec.maskv a) := by unfold Spec.maskv; split; exacts [h1, .zero]
  have hb : ERealBN.IsReal Spec.negBig :=
    ⟨-(15625000 * (2 : ℝ) ^ (6 : Int)), by simp [Spec.negBig, Ideal.ofBits, Ideal.ieee, -EReal.coe_mul]⟩
  unfold Spec.score
  exact ((ERealBN.IsReal.sum _ _ fun d _ => (hq d).mul (hk d)).mul hm).add ((h1.sub hm).mul hb)

/-- Block `i` of a row of 16384 entries cut into blocks of 512; zero past the end. -/
def blocks (X : Fin 16384 → EReal) (i : ℕ) (m : Fin 512) : EReal :=
  if h : i * 512 + m.val < 16384 then X ⟨i * 512 + m.val, h⟩ else 0

theorem blocks_eq (X : Fin 16384 → EReal) (i : ℕ) (hi : i < 32) (m : Fin 512) :
    blocks X i m = X ⟨i * 512 + m.val, by omega⟩ := dif_pos _

theorem irow_eq (t : Fin cfg1.N) (j i : ℕ) (ht : t.val = 32 * j + i) (hi : i < 32) (hj : j < 8) (k : Fin 1024) :
    irow1 t k = ⟨1024 * j + k.val, by omega⟩ := Fin.ext (by show 1024 * (t.val / 32) + k.val = 1024 * j + k.val; omega)

theorem ucol_eq (t : Fin cfg1.N) (j i : ℕ) (ht : t.val = 32 * j + i) (hi : i < 32) (m : Fin 512) :
    ucol1 t m = ⟨i * 512 + m.val, by omega⟩ := Fin.ext (by show 512 * (t.val % 32) + m.val = i * 512 + m.val; omega)

section
variable (V : (c : Dev nD) → (b : Ref sig .tc) → Buf (Elt Ideal) ((c : Thread nD τ).loc b)) (c : Dev nD)
  (A : (⟨2, ![16384, 8192]⟩ : Shape).Idx → BitVec 32)

/-- The masked scores of item row `n` against every user. -/
def rowX (n : Fin 8192) (q : Fin 16384) : EReal :=
  Spec.score (fun d' => V c main_arg1 (ix2 n d')) (fun d' => V c main_arg0 (ix2 q d')) (A (ix2 q n))

/-- Column `d` of the user embeddings. -/
def rowV (d : Fin 128) (q : Fin 16384) : EReal := V c main_arg0 (ix2 q d)

/-- The running (largest score, sum of exponentials, weighted sum) after point `t`. -/
def trip1 (t : Fin cfg1.N) : St1 :=
  ((outsAt1 V c t.val t.isLt).2.1, (outsAt1 V c t.val t.isLt).2.2.1, (outsAt1 V c t.val t.isLt).2.2.2)

/-- One point's update of a running state, with the point's own blocks. -/
def blkStep1 (t : Fin cfg1.N) (s : St1) : St1 :=
  stepI (iblk1 V c 0 t) (userBlk (grid1.coords t) (iblk1 V c 1 t)) (iblk1 V c 2 t) s

def prev1 (t : Fin cfg1.N) : Fin cfg1.N := ⟨t.val - 1, Nat.lt_of_le_of_lt (Nat.sub_le _ _) t.isLt⟩

theorem trip1_first (t : Fin cfg1.N) (h0 : t.val % 32 = 0) : trip1 V c t = blkStep1 V c t initI := by
  unfold trip1 blkStep1
  rw [outsAt1_A V c t h0 (by omega)]
  exact res1_A_eq ..

theorem trip1_next (t : Fin cfg1.N) (h0 : ¬t.val % 32 = 0) :
    trip1 V c t = blkStep1 V c t (trip1 V c (prev1 t)) := by
  unfold trip1 blkStep1 prev1
  by_cases h1 : t.val % 32 = 31
  · rw [outsAt1_C V c t h0 h1]
    exact (res1_C_eq ..).2
  · rw [outsAt1_B V c t h0 h1]
    exact res1_B_eq ..

theorem out5_eq (t : Fin cfg1.N) (h1 : t.val % 32 = 31) :
    (outsAt1 V c t.val t.isLt).1
      = k1_pay4 (iblk1 V c 0 t) (trip1 V c t).2.2 (trip1 V c t).2.1 (iblk1 V c 3 t) (iblk1 V c 4 t) := by
  have h0 : ¬t.val % 32 = 0 := by omega
  rw [trip1_next V c t h0, outsAt1_C V c t h0 h1]
  exact (res1_C_eq ..).1

/-- The entries of a running state that row `k`, column `d` reads. -/
def ent1 (s : St1) (k : Fin 1024) (d : Fin 128) : EReal × EReal × EReal :=
  (s.1 (ix2 k 0), s.2.1 (ix2 k 0), s.2.2 (ix2 k d))

/-- Read at one row and column, the update at point `32 j + i` is the streaming softmax's step on block `i` of item row `1024 j + k`. -/
theorem ent1_blkStep1 (hmask : ∀ (k : Fin 8192) (n : Fin 16384), V c main_v2_1 (ix2 k n) = Spec.maskv (A (ix2 n k)))
    (t : Fin cfg1.N) (j i : ℕ) (ht : t.val = 32 * j + i) (hi : i < 32) (hj : j < 8)
    (k : Fin 1024) (d : Fin 128) (s : St1) :
    ent1 (blkStep1 V c t s) k d
      = OnlineSoftmax.step (blocks (rowX V c A ⟨1024 * j + k.val, by omega⟩) i) (blocks (rowV V c d) i) (ent1 s k d) := by
  have e1 : scoreI (iblk1 V c 0 t) (userBlk (grid1.coords t) (iblk1 V c 1 t)) (iblk1 V c 2 t) k
      = blocks (rowX V c A ⟨1024 * j + k.val, by omega⟩) i := funext fun m => by
    rw [blocks_eq _ i hi, ← irow_eq t j i ht hi hj k, ← ucol_eq t j i ht hi m,
      scoreI_eq_score _ _ _ k m _ ((iblk1_2_apply V c t k m).trans (hmask _ _))]
    unfold rowX
    simp only [iblk1_0_apply, userBlk_apply, iblk1_1_apply]
  have e2 : (fun m => userBlk (grid1.coords t) (iblk1 V c 1 t) (ix2 m d)) = blocks (rowV V c d) i :=
    funext fun m => by
      rw [blocks_eq _ i hi, ← ucol_eq t j i ht hi m]
      unfold rowV
      simp only [userBlk_apply, iblk1_1_apply]
  unfold blkStep1 ent1
  rw [stepI_at, e1, e2]

/-- By induction over the user blocks: after point `32 j + i` the entries are the streaming state after `i + 1` blocks. -/
theorem ent1_trip1 (hmask : ∀ (k : Fin 8192) (n : Fin 16384), V c main_v2_1 (ix2 k n) = Spec.maskv (A (ix2 n k)))
    (j : ℕ) (hj : j < 8) (k : Fin 1024) (d : Fin 128) :
    ∀ i : ℕ, i < 32 → ∀ t : Fin cfg1.N, t.val = 32 * j + i →
      ent1 (trip1 V c t) k d
        = OnlineSoftmax.run (blocks (rowX V c A ⟨1024 * j + k.val, by omega⟩)) (blocks (rowV V c d)) (i + 1) := by
  intro i
  induction i with
  | zero =>
    intro hi t ht
    rw [trip1_first V c t (by omega), ent1_blkStep1 V c A hmask t j 0 ht hi hj k d,
      show ent1 initI k d = ((⊥ : EReal), (0 : EReal), (0 : EReal)) from initI_at k d]
    rfl
  | succ i ih =>
    intro hi t ht
    rw [trip1_next V c t (by omega), ent1_blkStep1 V c A hmask t j (i + 1) ht hi hj k d,
      ih (by omega) (prev1 t) (by show t.val - 1 = 32 * j + i; omega)]
    rfl

/-- The updated item embeddings, as a function of the array index. -/
def upd5 (j : S8192x128.Idx) : EReal :=
  Spec.lin (fun d' => V c main_arg1 (ix2 (j 0) d')) (fun a c' => V c main_v0 (ix2 c' a))
      (fun a => V c main_v1 (ix2 (0 : Fin 1) a)) (j 1)
    + Spec.attn (rowX V c A (j 0)) (rowV V c (j 1))

/-- After an item block's last point the quotient written out is the whole row's attention, the scores being real. -/
theorem out5_at (hU : ∀ i, ∃ r : ℝ, V c main_arg0 i = (r : EReal)) (hI : ∀ i, ∃ r : ℝ, V c main_arg1 i = (r : EReal))
    (hmask : ∀ (k : Fin 8192) (n : Fin 16384), V c main_v2_1 (ix2 k n) = Spec.maskv (A (ix2 n k)))
    (t : Fin cfg1.N) (h31 : t.val % 32 = 31) (k : Fin 1024) (d : Fin 128) :
    (outsAt1 V c t.val t.isLt).1 (ix2 k d) = upd5 V c A (ix2 (irow1 t k) d) := by
  have hN : t.val < 256 := lt_of_lt_of_eq t.isLt N_1
  have ht : t.val = 32 * (t.val / 32) + 31 := by omega
  have hj : t.val / 32 < 8 := by omega
  have hent := ent1_trip1 V c A hmask (t.val / 32) hj k d 31 (by omega) t ht
  rw [← irow_eq t (t.val / 32) 31 ht (by omega) hj k] at hent
  have hattn := OnlineSoftmax.run_div_eq_attn (B := 512) (nb := 32) (K := 16384) (by norm_num) (by norm_num)
    (by norm_num) (rowX V c A (irow1 t k)) (rowV V c d)
    (fun q => score_isReal _ _ (fun _ => hI _) (fun _ => hU _) _) (fun q => hU _)
    (blocks (rowX V c A (irow1 t k))) (blocks (rowV V c d))
    (fun i hi m => blocks_eq _ i hi m) (fun i hi m => blocks_eq _ i hi m)
  rw [out5_eq V c t h31, pay4_at]
  unfold upd5
  refine congrArg₂ (· + ·) ?_ ?_
  · simp only [iblk1_0_apply, iblk1_3_apply, iblk1_4_apply]
  · rw [← hattn, ← hent]
    rfl

end

end V1

section Region1
variable (V : (c : Dev nD) → (b : Ref sig .tc) → Buf (Elt Ideal) ((c : Thread nD τ).loc b))

open V1

theorem final1_5 (c : Dev nD) (hU : ∀ i, ∃ r : ℝ, V c main_arg0 i = (r : EReal)) (hI : ∀ i, ∃ r : ℝ, V c main_arg1 i = (r : EReal))
    (A : (⟨2, ![16384, 8192]⟩ : Shape).Idx → BitVec 32)
    (hmask : ∀ (k : Fin 8192) (n : Fin 16384), V c main_v2_1 (ix2 k n) = Spec.maskv (A (ix2 n k))) (k : Fin 8192) (d : Fin 128) :
    (dat1 (F := Ideal) V c).arrAt 5 cfg1.N (ix2 k d)
      = Spec.lin (fun d' => V c main_arg1 (ix2 k d')) (fun a c' => V c main_v0 (ix2 c' a)) (fun a => V c main_v1 (ix2 (0 : Fin 1) a)) d
        + Spec.attn (fun n : Fin 16384 => Spec.score (fun d' => V c main_arg1 (ix2 k d')) (fun d' => V c main_arg0 (ix2 n d')) (A (ix2 n k)))
            (fun n => V c main_arg0 (ix2 n d)) := by
  rw [arrAt1_5_eq V c (upd5 V c A) (out5_at V c A hU hI hmask)]
  rfl

end Region1

end Cert.KernelIdeal.Hand

end
-- ==== Proof.lean ====
import proofs.«400831_j17978733101719_3_alg».proof.Defs
import proofs.«400831_j17978733101719_3_alg».proof.Proof.Gen.Kernel
import proofs.«400831_j17978733101719_3_alg».proof.Proof.Gen.KernelIdeal
import proofs.«400831_j17978733101719_3_alg».proof.Proof.Gen.ReferenceIdeal
import proofs.«400831_j17978733101719_3_alg».proof.Proof.Gen.Pre_finite_inputs
import proofs.«400831_j17978733101719_3_alg».proof.Proof.Bits.UFrameOf
import proofs.«400831_j17978733101719_3_alg».proof.Proof.UFrameOf
import proofs.«400831_j17978733101719_3_alg».proof.Proof.RefValue
import proofs.«400831_j17978733101719_3_alg».proof.Proof.PreReal
import proofs.«400831_j17978733101719_3_alg».proof.Proof.V0Value
import proofs.«400831_j17978733101719_3_alg».proof.Proof.V1Value
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

section
open Cert.KernelIdeal Cert.KernelIdeal.Gen Cert.KernelIdeal.Hand

/-- Each entry of the updated-user array the idealized kernel ends with is the specification's value at the launch arguments (real-valued by the precondition). -/
theorem kernel_user (m : (ℓ : Loc nD τ sig) → Buf (Elt Ideal) ℓ) (h : @Cert.Pre_KernelIdeal Cert.Pre_finite_inputs.Gen.facts m) (c : Dev nD)
    (n : Fin 16384) (d : Fin 128) :
    W3 m c (Proc.devRef .tc main_v2_0) (ix2 n d)
      = Cert.Spec.updUser (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) n d := by
  obtain ⟨hU, hI⟩ := pre_real m h c
  rw [W3_res0, final0_5 (V1 m) c (by rw [V1_arg0]; exact hU) (by rw [V1_arg1]; exact hI) n d]
  unfold Cert.Spec.updUser
  have ev0 : (fun (a c' : Fin 128) => Cert.KernelIdeal.Hand.V1 m c main_v0 (ix2 c' a)) = fun a c' => m ((c.tc : Thread nD τ).loc main_arg3) (ix2 a c') :=
    funext fun a => funext fun c' => V1_v0_apply m c c' a
  have ev1 : (fun a : Fin 128 => Cert.KernelIdeal.Hand.V1 m c main_v1 (ix2 (0 : Fin 1) a)) = fun a => m ((c.tc : Thread nD τ).loc main_arg4) (ix1 a) :=
    funext fun a => V1_v1_apply m c a
  rw [ev0, ev1, V1_arg0 m c, V1_arg1 m c, V1_arg2 m c]

/-- The same for the updated-item array, with the transposed adjacency mask. -/
theorem kernel_item (m : (ℓ : Loc nD τ sig) → Buf (Elt Ideal) ℓ) (h : @Cert.Pre_KernelIdeal Cert.Pre_finite_inputs.Gen.facts m) (c : Dev nD)
    (k : Fin 8192) (d : Fin 128) :
    W3 m c (Proc.devRef .tc main_v3) (ix2 k d)
      = Cert.Spec.updItem (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) k d := by
  obtain ⟨hU, hI⟩ := pre_real m h c
  rw [W3_res1, final1_5 (V2 m) c (by rw [V2_arg0]; exact hU) (by rw [V2_arg1]; exact hI) (m ((c.tc : Thread nD τ).loc main_arg2))
    (fun k n => by rw [V2_relay, final0_6 (V1 m) c k n, V1_arg2]) k d]
  unfold Cert.Spec.updItem
  have ev0 : (fun (a c' : Fin 128) => Cert.KernelIdeal.Hand.V2 m c main_v0 (ix2 c' a)) = fun a c' => m ((c.tc : Thread nD τ).loc main_arg3) (ix2 a c') :=
    funext fun a => funext fun c' => by rw [V2_v0 m c]; exact V1_v0_apply m c c' a
  have ev1 : (fun a : Fin 128 => Cert.KernelIdeal.Hand.V2 m c main_v1 (ix2 (0 : Fin 1) a)) = fun a => m ((c.tc : Thread nD τ).loc main_arg4) (ix1 a) :=
    funext fun a => by rw [V2_v1 m c]; exact V1_v1_apply m c a
  rw [ev0, ev1, V2_arg0 m c, V2_arg1 m c]

end

theorem frame_k : @Cert.frame_Kernel Cert.Kernel.Gen.facts Cert.Pre_finite_inputs.Gen.facts :=
  fun m ρ _ => Cert.Kernel.Hand.frame_all m ρ
theorem frame_ki : @Cert.frame_KernelIdeal Cert.KernelIdeal.Gen.facts Cert.Pre_finite_inputs.Gen.facts :=
  fun m ρ _ => Cert.KernelIdeal.Hand.frame_all m ρ
theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- Both idealized programs end at the specification's two arrays: the kernel by the two lemmas above, the reference read index by index. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Hand.W3 m c (Proc.devRef .tc Cert.KernelIdeal.main_v2_0),
    fun c => Cert.KernelIdeal.Hand.W3 m c (Proc.devRef .tc Cert.KernelIdeal.main_v3), ?_, ?_⟩
  · exact (θ_run Cert.KernelIdeal.defs _ _).mono (fun r h c =>
      ⟨h c _ (Cert.KernelIdeal.Hand.mem_uc Cert.KernelIdeal.main_v2_0 (by decide)),
       h c _ (Cert.KernelIdeal.Hand.mem_uc Cert.KernelIdeal.main_v3 (by decide)),
       (h c _ (Cert.KernelIdeal.Hand.mem_uc Cert.KernelIdeal.main_arg0 (by decide))).trans (Cert.KernelIdeal.Hand.W3_arg0 m c),
       (h c _ (Cert.KernelIdeal.Hand.mem_uc Cert.KernelIdeal.main_arg1 (by decide))).trans (Cert.KernelIdeal.Hand.W3_arg1 m c),
       (h c _ (Cert.KernelIdeal.Hand.mem_uc Cert.KernelIdeal.main_arg2 (by decide))).trans (Cert.KernelIdeal.Hand.W3_arg2 m c),
       (h c _ (Cert.KernelIdeal.Hand.mem_uc Cert.KernelIdeal.main_arg3 (by decide))).trans (Cert.KernelIdeal.Hand.W3_arg3 m c),
       (h c _ (Cert.KernelIdeal.Hand.mem_uc Cert.KernelIdeal.main_arg4 (by decide))).trans (Cert.KernelIdeal.Hand.W3_arg4 m c)⟩)
      (Cert.KernelIdeal.Hand.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v35_eq, (hagree c).1, (hagree c).2.1, (hagree c).2.2.1, (hagree c).2.2.2.1, (hagree c).2.2.2.2]
      funext j
      obtain ⟨p, q, rfl⟩ : ∃ (p : Fin 16384) (q : Fin 128), j = ix2 p q := ⟨j 0, j 1, eq_ix2 j⟩
      rw [Cert.ReferenceIdeal.RefValue.user_eq]
      exact (kernel_user m hpre c p q).symm
    · rw [Cert.ReferenceIdeal.Read.val_main_v57_eq, (hagree c).1, (hagree c).2.1, (hagree c).2.2.1, (hagree c).2.2.2.1, (hagree c).2.2.2.2]
      funext j
      obtain ⟨p, q, rfl⟩ : ∃ (p : Fin 8192) (q : Fin 128), j = ix2 p q := ⟨j 0, j 1, eq_ix2 j⟩
      rw [Cert.ReferenceIdeal.RefValue.item_eq]
      exact (kernel_item m hpre c p q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
